-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v82 : IVec S_ 1) (main_v84 : IVec S2x800000 1) : IVec S_ 1 :=
  let main_c_33 : IVec S_ 1 := constantI S_ 1 1#1
  let main_v85 : IVec S_ 1 := (fun x v => Host.reduce IntOp.andi x v reducesTo_S2x800000_S_d0_1 h_S_) main_v84 main_c_33
  let main_v86 : IVec S_ 1 := andi main_v82 main_v85
  main_v86

def fn_part4 {F : FTy → Type} [FloatOps F] (main_arg14 : FVec F S128 .f32) (main_arg15 : FVec F S128 .f32) (main_arg16 : IVec S2x800000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg16 main_v79
  let main_c_31 : IVec S_ 1 := constantI S_ 1 1#1
  let main_v81 : IVec S_ 1 := (fun x v => Host.reduce IntOp.andi x v reducesTo_S2x800000_S_d0_1 h_S_) main_v80 main_c_31
  let main_v82 : IVec S_ 1 := andi main_v78 main_v81
  let main_c_32 : IVec S_ 32 := constantI S_ 32 50000#32
  let main_v83 : IVec S2x800000 32 := broadcastInDim S2x800000 ![] bcast_S_S2x800000 main_c_32
  let main_v84 : IVec S2x800000 1 := cmpi .slt main_arg16 main_v83
  fn_part5 (F := F) main_v82 main_v84

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : IVec S2x800000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : IVec S2x800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x128 .f32) (main_arg1 : FVec F S800000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S2x800000 : Shape := ⟨2, ![2, 800000]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S5000x128 : Shape := ⟨2, ![5000, 128]⟩
abbrev S5000x512 : Shape := ⟨2, ![5000, 512]⟩
abbrev S50000x256 : Shape := ⟨2, ![50000, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1x128 : Shape := ⟨2, ![1, 128]⟩
abbrev S125x1x128 : Shape := ⟨3, ![125, 1, 128]⟩
abbrev S6400x128 : Shape := ⟨2, ![6400, 128]⟩
abbrev S6400x256 : Shape := ⟨2, ![6400, 256]⟩
abbrev S1x1x128 : Shape := ⟨3, ![1, 1, 128]⟩
abbrev S10x1x128 : Shape := ⟨3, ![10, 1, 128]⟩
abbrev S8000x128 : Shape := ⟨2, ![8000, 128]⟩

abbrev nBuf : Space → Nat
  | .hbm => 124
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x800000, .i32⟩
  | .hbm, ⟨17, _⟩ => ⟨S128x512, .f32⟩
  | .hbm, ⟨18, _⟩ => ⟨S512, .f32⟩
  | .hbm, ⟨19, _⟩ => ⟨S1x512, .f32⟩
  | .hbm, ⟨20, _⟩ => ⟨S50000x512, .f32⟩
  | .hbm, ⟨21, _⟩ => ⟨S50000x128, .f32⟩
  | .hbm, ⟨22, _⟩ => ⟨S50000x128, .f32⟩
  | .hbm, ⟨23, _⟩ => ⟨S50000x256, .f32⟩
  | .hbm, ⟨24, _⟩ => ⟨S1x800000, .i32⟩
  | .hbm, ⟨25, _⟩ => ⟨S800000, .i32⟩
  | .hbm, ⟨26, _⟩ => ⟨S1x800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x256, .f32⟩
  | .hbm, ⟨47, _⟩ => ⟨S800000x256, .i1⟩
  | .hbm, ⟨48, _⟩ => ⟨S_, .f32⟩
  | .hbm, ⟨49, _⟩ => ⟨S800000x256, .f32⟩
  | .hbm, ⟨50, _⟩ => ⟨S800000x256, .f32⟩
  | .hbm, ⟨51, _⟩ => ⟨S800000x128, .f32⟩
  | .hbm, ⟨52, _⟩ => ⟨S800000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S1, .i32⟩
  | .hbm, ⟨62, _⟩ => ⟨S_, .i32⟩
  | .hbm, ⟨63, _⟩ => ⟨S800000x1, .i32⟩
  | .hbm, ⟨64, _⟩ => ⟨S800000x1, .i1⟩
  | .hbm, ⟨65, _⟩ => ⟨S1x1, .i32⟩
  | .hbm, ⟨66, _⟩ => ⟨S800000x1, .i32⟩
  | .hbm, ⟨67, _⟩ => ⟨S800000x1, .i1⟩
  | .hbm, ⟨68, _⟩ => ⟨S800000x1, .i1⟩
  | .hbm, ⟨69, _⟩ => ⟨S_, .i1⟩
  | .hbm, ⟨70, _⟩ => ⟨S800000, .i1⟩
  | .hbm, ⟨71, _⟩ => ⟨S800000x128, .f32⟩
  | .hbm, ⟨72, _⟩ => ⟨S800000x128, .i1⟩
  | .hbm, ⟨73, _⟩ => ⟨S_, .f32⟩
  | .hbm, ⟨74, _⟩ => ⟨S800000x128, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x256, .f32⟩
  | .hbm, ⟨79, _⟩ => ⟨S125x1x128, .f32⟩
  | .hbm, ⟨80, _⟩ => ⟨S125x1x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S10x1x128, .f32⟩
  | .hbm, ⟨93, _⟩ => ⟨S10x1x128, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S50000x128, .f32⟩
  | .hbm, ⟨111, _⟩ => ⟨S_, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S_, .f32⟩
  | .hbm, ⟨116, _⟩ => ⟨S128, .f32⟩
  | .hbm, ⟨117, _⟩ => ⟨S128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S800000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | .local _ .vmem, ⟨10, _⟩ => ⟨S6400x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S128x128, .f32⟩
  | .local _ .vmem, ⟨15, _⟩ => ⟨S1x128, .f32⟩
  | .local _ .vmem, ⟨16, _⟩ => ⟨S6400x128, .f32⟩
  | .local _ .vmem, ⟨17, _⟩ => ⟨S6400x128, .f32⟩
  | .local _ .vmem, ⟨18, _⟩ => ⟨S6400x256, .f32⟩
  | .local _ .vmem, ⟨19, _⟩ => ⟨S6400x256, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S8000x128, .f32⟩
  | .local _ .vmem, ⟨45, _⟩ => ⟨S8000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S8000x128, .f32⟩
  | .local _ .vmem, ⟨51, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v14 : Ref sig .tc := ⟨.hbm, 75, rfl⟩
abbrev main_v15 : Ref sig .tc := ⟨.hbm, 76, rfl⟩
abbrev main_v16_0 : Ref sig .tc := ⟨.hbm, 77, rfl⟩
abbrev main_v16_1 : Ref sig .tc := ⟨.hbm, 78, rfl⟩
abbrev main_v16_2 : Ref sig .tc := ⟨.hbm, 79, rfl⟩
abbrev main_v16_3 : Ref sig .tc := ⟨.hbm, 80, rfl⟩
abbrev main_cst : Ref sig .tc := ⟨.hbm, 81, rfl⟩
abbrev main_v17 : Ref sig .tc := ⟨.hbm, 82, rfl⟩
abbrev main_cst_0 : Ref sig .tc := ⟨.hbm, 83, rfl⟩
abbrev main_v18 : Ref sig .tc := ⟨.hbm, 84, rfl⟩
abbrev main_cst_1 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24_0 : Ref sig .tc := ⟨.hbm, 91, rfl⟩
abbrev main_v24_1 : Ref sig .tc := ⟨.hbm, 92, rfl⟩
abbrev main_v24_2 : Ref sig .tc := ⟨.hbm, 93, rfl⟩
abbrev main_cst_2 : Ref sig .tc := ⟨.hbm, 94, rfl⟩
abbrev main_v25 : Ref sig .tc := ⟨.hbm, 95, rfl⟩
abbrev main_cst_3 : Ref sig .tc := ⟨.hbm, 96, rfl⟩
abbrev main_v26 : Ref sig .tc := ⟨.hbm, 97, rfl⟩
abbrev main_cst_4 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_cst_5 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_cst_6 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_7 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6400x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S5000x128_S5000x128_0_0 : ∀ a, (![0, 0] : Fin 2 → Nat) a + S5000x128.size a ≤ S5000x128.size a
  h_S5000x128 : 0 < S5000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S50000x512_S50000x128_0_0 : S50000x512.Slices ![0, 0] S50000x128
  slices_S50000x512_S50000x128_0_128 : S50000x512.Slices ![0, 128] S50000x128
  slices_S50000x512_S50000x256_0_256 : S50000x512.Slices ![0, 256] S50000x256
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  slices_S800000x256_S800000x128_0_0 : S800000x256.Slices ![0, 0] S800000x128
  slices_S800000x256_S800000x128_0_128 : S800000x256.Slices ![0, 128] S800000x128
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  shapeCasts_S6400x128_S6400x128 : S6400x128.ShapeCasts S6400x128
  inb_S6400x256_S6400x128_0_0 : ∀ a, (![0, 0] : Fin 2 → Nat) a + S6400x128.size a ≤ S6400x256.size a
  inb_S6400x256_S6400x128_0_128 : ∀ a, (![0, 128] : Fin 2 → Nat) a + S6400x128.size a ≤ S6400x256.size a
  reduces_S6400x128_S128 : S6400x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S125x1x128_S128_d0_1 : S125x1x128.ReducesTo [0, 1] S128
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S5000x128_S5000x128 : S5000x128.ShapeCasts S5000x128
  reduces_S5000x128_S128 : S5000x128.Reduces [0] S128
  reducesTo_S10x1x128_S128_d0_1 : S10x1x128.ReducesTo [0, 1] S128
  bcast_S_S128 : S_.BroadcastsInDim S128 (![] : Fin 0 → Fin S128.rank)
  broadcasts_S1x128_S5000x128 : S1x128.Broadcasts S5000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  dot_S5000x128_S128x512_S5000x512_1_0_0_1_n_n_wf : DotDims.WF S5000x128 S128x512 S5000x512 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S800000x128.size a
  hwx1_3 : ∀ i : grid1.Coords, EltTy.bits .f32 = 32 ∨ (Rect.block (s := S800000x128) S6400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6400x128.size a ≤ S800000x128.size a
  hwx1_6 : ∀ i : grid1.Coords, EltTy.bits .f32 = 32 ∨ (Rect.block (s := S800000x128) S6400x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x256.size a ≤ S800000x256.size a
  hwx1_7 : ∀ i : grid1.Coords, EltTy.bits .f32 = 32 ∨ (Rect.block (s := S800000x256) S6400x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S125x1x128.size a
  hwx1_8 : ∀ i : grid1.Coords, EltTy.bits .f32 = 32 ∨ (Rect.block (s := S125x1x128) S1x1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S125x1x128.size a
  hwx1_9 : ∀ i : grid1.Coords, EltTy.bits .f32 = 32 ∨ (Rect.block (s := S125x1x128) S1x1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S10x1x128.size a
  hwx2_4 : ∀ i : grid2.Coords, EltTy.bits .f32 = 32 ∨ (Rect.block (s := S10x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S10x1x128.size a
  hwx2_5 : ∀ i : grid2.Coords, EltTy.bits .f32 = 32 ∨ (Rect.block (s := S10x1x128) S1x1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x128.size a ≤ S800000x128.size a
  hwx4_5 : ∀ i : grid4.Coords, EltTy.bits .f32 = 32 ∨ (Rect.block (s := S800000x128) S8000x128.size (cc4_transform_5 i) (hinb4_5 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S6400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_0) S6400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v16_1) S6400x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v16_2) S1x1x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v16_3) S1x1x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24_1) S1x1x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v24_2) S1x1x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v24_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v16_0) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v48) S8000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S800000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S2x800000, .i32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S800000x128, .f32⟩
  | 30 => ⟨S1x128, .f32⟩
  | 31 => ⟨S800000x128, .f32⟩
  | 32 => ⟨S800000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S50000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S800000x128, .f32⟩
  | 4 => ⟨S800000x128, .f32⟩
  | 5 => ⟨S800000x128, .f32⟩
  | 6 => ⟨S_, .f32⟩
  | 7 => ⟨S128, .f32⟩
  | 8 => ⟨S_, .f32⟩
  | 9 => ⟨S128, .f32⟩
  | 10 => ⟨S128, .f32⟩
  | 11 => ⟨S1x128, .f32⟩
  | 12 => ⟨S800000x128, .f32⟩
  | 13 => ⟨S800000x128, .f32⟩
  | 14 => ⟨S_, .f32⟩
  | 15 => ⟨S128, .f32⟩
  | 16 => ⟨S128, .f32⟩
  | 17 => ⟨S128, .f32⟩
  | 18 => ⟨S1x128, .f32⟩
  | 19 => ⟨S800000x128, .f32⟩
  | 20 => ⟨S800000x128, .f32⟩
  | 21 => ⟨S1x128, .f32⟩
  | 22 => ⟨S800000x128, .f32⟩
  | 23 => ⟨S800000x128, .f32⟩
  | 24 => ⟨S1x128, .f32⟩
  | 25 => ⟨S800000x128, .f32⟩
  | 26 => ⟨S800000x128, .f32⟩
  | 27 => ⟨S_, .f32⟩
  | 28 => ⟨S800000x128, .f32⟩
  | 29 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_v31 : Ref sig .tc := ⟨.hbm, 51, rfl⟩
abbrev main_v32 : Ref sig .tc := ⟨.hbm, 52, rfl⟩
abbrev main_c_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call0_cst : Ref sig .tc := ⟨.hbm, 122, rfl⟩
abbrev main_call0_v0 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_cst_15 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_16 : Ref sig .tc := ⟨.hbm, 134, rfl⟩
abbrev main_v97 : Ref sig .tc := ⟨.hbm, 135, rfl⟩
abbrev main_cst_17 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_18 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call1_cst : Ref sig .tc := ⟨.hbm, 155, rfl⟩
abbrev main_call1_v0 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  reducesTo_S800000x128_S128_d0 : S800000x128.ReducesTo [0] S128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KI.Region0.lean ====
import proofs.«416831_j26182120636870_3_alg».proof.Proof.Gen.KernelIdeal.Launch
import proofs.«416831_j26182120636870_3_alg».proof.Proof.Gen.KernelIdeal.Skeleton
import proofs.«416831_j26182120636870_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S5000x512 := Rect.unit (s := S5000x512) ![0, 0] S5000x512.size inb_S5000x512_S5000x512_0_0

def out0_3 (x0 : Vec F S5000x128 .f32) (x1 : Vec F S128x512 .f32) (x2 : Vec F S1x512 .f32) : Vec F S5000x512 .f32 :=
  View.canon [⟨r0_3, k0_pay1 (View.ld x0 r0_0) (View.ld x1 r0_1) (View.ld x2 r0_2)⟩]

theorem cover0_3 (p0 : Vec F S5000x512 .f32) (y : S5000x512.Idx) :
    ∃ pc ∈ ([⟨r0_3, p0⟩] : List (View.Piece (Elt F) S5000x512 .f32)), y ∈ pc.1.set :=
  View.cover_of_tiled [⟨r0_3, p0⟩] S5000x512.size (by rfl) y

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S128x512 .f32) (harg2 : arg2.IsWhole)
    (arg3 : Memref sig .tc .vmem S1x512 .f32) (harg3 : arg3.IsWhole) (arg4 : Memref sig .tc .vmem S5000x512 .f32) (harg4 : arg4.IsWhole)
    (x0 : Vec F S5000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KI.Region1.lean ====
import proofs.«416831_j26182120636870_3_alg».proof.Proof.Gen.KernelIdeal.Launch
import proofs.«416831_j26182120636870_3_alg».proof.Proof.Gen.KernelIdeal.Skeleton
import proofs.«416831_j26182120636870_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S6400x128 := Rect.unit (s := S6400x128) ![0, 0] S6400x128.size inb_S6400x128_S6400x128_0_0

abbrev r1_1 : Rect S128x128 := Rect.unit (s := S128x128) ![0, 0] S128x128.size inb_S128x128_S128x128_0_0

abbrev r1_2 : Rect S1x128 := Rect.unit (s := S1x128) ![0, 0] S1x128.size inb_S1x128_S1x128_0_0

abbrev r1_3 : Rect S6400x256 := Rect.unit (s := S6400x256) ![0, 0] S6400x128.size inb_S6400x256_S6400x128_0_0

abbrev r1_4 : Rect S6400x256 := Rect.unit (s := S6400x256) ![0, 128] S6400x128.size inb_S6400x256_S6400x128_0_128

abbrev r1_5 : Rect S1x1x128 := Rect.unit (s := S1x1x128) ![0, 0, 0] S1x1x128.size inb_S1x1x128_S1x1x128_0_0_0

def out1_6 (x0 x1 x2 x3 : Vec F S6400x128 .f32) (x4 : Vec F S128x128 .f32) (x5 : Vec F S1x128 .f32) : Vec F S6400x128 .f32 :=
  View.canon [⟨r1_0, k1_pay1 (View.ld x3 r1_0) (View.ld x4 r1_1) (View.ld x5 r1_2) (View.ld x0 r1_0) (View.ld x1 r1_0)⟩]

theorem cover1_6 (p0 : Vec F S6400x128 .f32) (y : S6400x128.Idx) :
    ∃ pc ∈ ([⟨r1_0, p0⟩] : List (View.Piece (Elt F) S6400x128 .f32)), y ∈ pc.1.set :=
  View.cover_of_tiled [⟨r1_0, p0⟩] S6400x128.size (by rfl) y

def out1_7 (x0 x1 x2 x3 : Vec F S6400x128 .f32) (x4 : Vec F S128x128 .f32) (x5 : Vec F S1x128 .f32) : Vec F S6400x256 .f32 :=
  View.canon [⟨r1_4, k1_pay2 (View.ld x3 r1_0) (View.ld x4 r1_1) (View.ld x5 r1_2) (View.ld x0 r1_0) (View.ld x1 r1_0)⟩,
    ⟨r1_3, k1_pay3 (View.ld x3 r1_0) (View.ld x4 r1_1) (View.ld x5 r1_2) (View.ld x0 r1_0) (View.ld x1 r1_0) (View.ld x2 r1_0)⟩]

theorem cover1_7 (p0 : Vec F S6400x128 .f32) (p1 : Vec F S6400x128 .f32) (y : S6400x256.Idx) :
    ∃ pc ∈ ([⟨r1_4, p0⟩, ⟨r1_3, p1⟩] : List (View.Piece (Elt F) S6400x256 .f32)), y ∈ pc.1.set :=
  View.cover_of_tiled [⟨r1_4, p0⟩, ⟨r1_3, p1⟩] S6400x128.size (by rfl) y

def out1_8 (x0 x1 x2 x3 : Vec F S6400x128 .f32) (x4 : Vec F S128x128 .f32) (x5 : Vec F S1x128 .f32) : Vec F S1x1x128 .f32 :=
  View.canon [⟨r1_5, k1_pay4 (View.ld x3 r1_0) (View.ld x4 r1_1) (View.ld x5 r1_2) (View.ld x0 r1_0) (View.ld x1 r1_0)⟩]

theorem cover1_8 (p0 : Vec F S1x1x128 .f32) (y : S1x1x128.Idx) :
    ∃ pc ∈ ([⟨r1_5, p0⟩] : List (View.Piece (Elt F) S1x1x128 .f32)), y ∈ pc.1.set :=
  View.cover_of_tiled [⟨r1_5, p0⟩] S1x1x128.size (by rfl) y

def out1_9 (x0 x1 x2 x3 : Vec F S6400x128 .f32) (x4 : Vec F S128x128 .f32) (x5 : Vec F S1x128 .f32) : Vec F S1x1x128 .f32 :=
  View.canon [⟨r1_5, k1_pay5 (View.ld x3 r1_0) (View.ld x4 r1_1) (View.ld x5 r1_2) (View.ld x0 r1_0) (View.ld x1 r1_0)⟩]

theorem cover1_9 (p0 : Vec F S1x1x128 .f32) (y : S1x1x128.Idx) :
    ∃ pc ∈ ([⟨r1_5, p0⟩] : List (View.Piece (Elt F) S1x1x128 .f32)), y ∈ pc.1.set :=
  View.cover_of_tiled [⟨r1_5, p0⟩] S1x1x128.size (by rfl) y

set_option maxHeartbeats 2000000 in

theorem sound_kernel1 (c : Dev nD) (E : Set ℕ) (i : grid1.Coords) (arg1 : Memref sig .tc .vmem S6400x128 .f32) (harg1 : arg1.IsWhole) (arg2 : Memref sig .tc .vmem S6400x128 .f32) (harg2 : arg2.IsWhole) (arg3 : Memref sig .tc .vmem S6400x128 .f32) (harg3 : arg3.IsWhole) (arg4 : Memref sig .tc .vmem S6400x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S6400x128 .f32) (harg7 : arg7.IsWhole) (arg8 : Memref sig .tc .vmem S6400x256 .f32) (harg8 : arg8.IsWhole) (arg9 : Memref sig .tc .vmem S1x1x128 .f32) (harg9 : arg9.IsWhole) (arg10 : Memref sig .tc .vmem S1x1x128 .f32) (harg10 : arg10.IsWhole)
    (x0 x1 x2 x3 : Vec F S6400x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5) ∗ owns (c : Thread nD τ) arg9 fullShare (out1_8 x0 x1 x2 x3 x4 x5) ∗ owns (c : Thread nD τ) arg10 fullShare (out1_9 x0 x1 x2 x3 x4 x5)) -∗ K ⟨⟩))
      ⊢ wp frame (wpE (defs₀ (F := F)) Variants.none c none) E (cc1__message_kernel i arg1 harg1 arg2 harg2 arg3 harg3 arg4 harg4 arg5 harg5 arg6 harg6 arg7 harg7 arg8 harg8 arg9 harg9 arg10 harg10) K := by
  simp only [cc1__message_kernel_eq_skeleton]; unfold cc1__message_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  isplitl [H7]
  · iexists _; isplitr
    swap; · iexact H7
    ipureintro
    try dsimp only
    exact View.read_writes_eq_canon _ _ _ (cover1_7 _ _)
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t) (iblk1 V c 5 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KI.Region2.lean ====
import proofs.«416831_j26182120636870_3_alg».proof.Proof.Gen.KernelIdeal.Launch
import proofs.«416831_j26182120636870_3_alg».proof.Proof.Gen.KernelIdeal.Skeleton
import proofs.«416831_j26182120636870_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x1x128 := Rect.unit (s := S1x1x128) ![0, 0, 0] S1x1x128.size inb_S1x1x128_S1x1x128_0_0_0

def out2_3 (x0 : Vec F S5000x128 .f32) (x1 : Vec F S5000x128 .f32) (x2 : Vec F S5000x128 .f32) : Vec F S5000x128 .f32 :=
  View.canon [⟨r2_0, k2_pay1 (View.ld x1 r2_0) (View.ld x2 r2_0) (View.ld x0 r2_0)⟩]

theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

def out2_4 (x0 : Vec F S5000x128 .f32) (x1 : Vec F S5000x128 .f32) (x2 : Vec F S5000x128 .f32) : Vec F S1x1x128 .f32 :=
  View.canon [⟨r2_1, k2_pay2 (View.ld x1 r2_0) (View.ld x2 r2_0) (View.ld x0 r2_0)⟩]

theorem cover2_4 (p0 : Vec F S1x1x128 .f32) (y : S1x1x128.Idx) :
    ∃ pc ∈ ([⟨r2_1, p0⟩] : List (View.Piece (Elt F) S1x1x128 .f32)), y ∈ pc.1.set :=
  View.cover_of_tiled [⟨r2_1, p0⟩] S1x1x128.size (by rfl) y

def out2_5 (x0 : Vec F S5000x128 .f32) (x1 : Vec F S5000x128 .f32) (x2 : Vec F S5000x128 .f32) : Vec F S1x1x128 .f32 :=
  View.canon [⟨r2_1, k2_pay3 (View.ld x1 r2_0) (View.ld x2 r2_0) (View.ld x0 r2_0)⟩]

theorem cover2_5 (p0 : Vec F S1x1x128 .f32) (y : S1x1x128.Idx) :
    ∃ pc ∈ ([⟨r2_1, p0⟩] : List (View.Piece (Elt F) S1x1x128 .f32)), y ∈ pc.1.set :=
  View.cover_of_tiled [⟨r2_1, p0⟩] S1x1x128.size (by rfl) y

set_option maxHeartbeats 1000000 in

theorem sound_fn2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1x128 .f32) (harg5 : arg5.IsWhole) (arg6 : Memref sig .tc .vmem S1x1x128 .f32) (harg6 : arg6.IsWhole)
    (x0 : Vec F S5000x128 .f32) (x1 : Vec F S5000x128 .f32) (x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)
            ∗ owns (c : Thread nD τ) arg6 fullShare (out2_5 x0 x1 x2)) -∗ K ⟨⟩))
      ⊢ wp frame (wpE (defs₀ (F := F)) Variants.none c none) E (cc2__node_prep_kernel i arg1 harg1 arg2 harg2 arg3 harg3 arg4 harg4 arg5 harg5 arg6 harg6) K := by
  simp only [cc2__node_prep_kernel_eq_skeleton]; unfold cc2__node_prep_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
    | ⟨5, _⟩ => out2_5 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]
theorem after2_4 (c : Dev nD) (t : Fin cfg2.N) :
    (dat2 V c).after 4 t = out2_4 (iblk2 V c 0 t) (iblk2 V c 1 t) (iblk2 V c 2 t) := by dsimp only [dat2]
theorem after2_5 (c : Dev nD) (t : Fin cfg2.N) :
    (dat2 V c).after 5 t = out2_5 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_fn2 c Set.univ (grid2.coords t) _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.KI.Region3.lean ====
import proofs.«416831_j26182120636870_3_alg».proof.Proof.Gen.KernelIdeal.Launch
import proofs.«416831_j26182120636870_3_alg».proof.Proof.Gen.KernelIdeal.Skeleton
import proofs.«416831_j26182120636870_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0

abbrev r3_b : Rect S1x128 := Rect.unit (s := S1x128) ![0, 0] S1x128.size inb_S1x128_S1x128_0_0

def out3_5 (x0 : Vec F S5000x128 .f32) (x1 x2 x3 x4 : Vec F S1x128 .f32) : Vec F S5000x128 .f32 :=
  View.canon [⟨r3_a, k3_pay1 (View.ld x0 r3_a) (View.ld x2 r3_b) (View.ld x1 r3_b) (View.ld x3 r3_b) (View.ld x4 r3_b)⟩]

theorem cover3_5 (p : Vec F S5000x128 .f32) (y : S5000x128.Idx) :
    ∃ pc ∈ ([⟨r3_a, p⟩] : List (View.Piece (Elt F) S5000x128 .f32)), y ∈ pc.1.set :=
  View.cover_of_tiled [⟨r3_a, p⟩] S5000x128.size (by rfl) y

set_option maxHeartbeats 1000000 in

theorem sound_call3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_5]
  iintro ⟨HΦ, Ho, ⟨%d0, H0⟩, ⟨%d1, H1⟩, ⟨%d2, H2⟩, ⟨%d3, H3⟩, ⟨%d4, H4⟩, ⟨%d5, H5⟩⟩
  iapply (sound_call3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Run

end
-- ==== Proof.KI.Region4.lean ====
import proofs.«416831_j26182120636870_3_alg».proof.Proof.Gen.KernelIdeal.Launch
import proofs.«416831_j26182120636870_3_alg».proof.Proof.Gen.KernelIdeal.Skeleton
import proofs.«416831_j26182120636870_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

abbrev r4_a : Rect S8000x128 := Rect.unit (s := S8000x128) ![0, 0] S8000x128.size inb_S8000x128_S8000x128_0_0

abbrev r4_b : Rect S1x128 := Rect.unit (s := S1x128) ![0, 0] S1x128.size inb_S1x128_S1x128_0_0

def out4_5 (x0 : Vec F S8000x128 .f32) (x1 x2 x3 x4 : Vec F S1x128 .f32) : Vec F S8000x128 .f32 :=
  View.canon [⟨r4_a, k4_pay1 (View.ld x0 r4_a) (View.ld x2 r4_b) (View.ld x1 r4_b) (View.ld x3 r4_b) (View.ld x4 r4_b)⟩]

theorem cover4_5 (p : Vec F S8000x128 .f32) (y : S8000x128.Idx) :
    ∃ pc ∈ ([⟨r4_a, p⟩] : List (View.Piece (Elt F) S8000x128 .f32)), y ∈ pc.1.set :=
  View.cover_of_tiled [⟨r4_a, p⟩] S8000x128.size (by rfl) y

set_option maxHeartbeats 1000000 in

theorem sound_call4 (c : Dev nD) (E : Set ℕ) (i : grid4.Coords)
    (arg1 : Memref sig .tc .vmem S8000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S8000x128 .f32) (harg6 : arg6.IsWhole)
    (x0 : Vec F S8000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_apply_kernel i arg1 harg1 arg2 harg2 arg3 harg3 arg4 harg4 arg5 harg5 arg6 harg6) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t =
    out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_5]
  iintro ⟨HΦ, Ho, ⟨%d0, H0⟩, ⟨%d1, H1⟩, ⟨%d2, H2⟩, ⟨%d3, H3⟩, ⟨%d4, H4⟩, ⟨%d5, H5⟩⟩
  iapply (sound_call4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Run

end
-- ==== Proof.KI.Run.lean ====
import proofs.«416831_j26182120636870_3_alg».proof.Proof.KI.Region0
import proofs.«416831_j26182120636870_3_alg».proof.Proof.KI.Region1
import proofs.«416831_j26182120636870_3_alg».proof.Proof.KI.Region2
import proofs.«416831_j26182120636870_3_alg».proof.Proof.KI.Region3
import proofs.«416831_j26182120636870_3_alg».proof.Proof.KI.Region4
import proofs.«416831_j26182120636870_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {p : Fin 5} (Wi : Dev nD → Valuation τ sig (Elt F))
  (d : (c : Dev nD) → Dat τ (Elt F) Unit ℕ (UR sig nD τ) ℕ (cfgs p) c)

def out (c : Dev nD) : Valuation τ sig (Elt F) :=
  Pipeline.withArrays (cfgs p).spec c (Wi c) fun w => (d c).arrAt w (cfgs p).N

theorem out_arr (lf : Pipeline.LaunchFacts (nD := nD) (τ := τ) cfgs p) (c : Dev nD) (w : Fin (cfgs p).W) :
    out Wi d c (Proc.devRef .tc (Pipeline.arrRef (cfgs p).spec w)) = (d c).arrAt w (cfgs p).N :=
  Pipeline.withArrays_arr _ lf.win.arr_inj c _ _ w

-- Off the listed references every window is an input, and an input's array stays at its entry contents.
theorem out_keep (lf : Pipeline.LaunchFacts (nD := nD) (τ := τ) cfgs p) (hA : ∀ c w, (d c).A w = Wi c (Proc.devRef .tc (Pipeline.arrRef (cfgs p).spec w))) {l : List (Ref sig .tc)}
    (hl : ∀ w, Pipeline.arrRef (cfgs p).spec w ∉ l → ((cfgs p).win w).isOut = false) (c : Dev nD) (r : Ref sig .tc) (h : r ∉ l) :
    out Wi d c (Proc.devRef .tc r) = Wi c (Proc.devRef .tc r) := by
  by_cases hw : ∃ w, Pipeline.arrRef (cfgs p).spec w = r
  · obtain ⟨w, rfl⟩ := hw
    exact (out_arr Wi d lf c w).trans (((d c).arrAt_in w (hl w h) _).trans (hA c w))
  · exact Pipeline.withArrays_of_ne _ c _ _ r fun w e => hw ⟨w, e⟩

end

abbrev W0 (m : (ℓ : Loc nD τ sig) → Buf (Elt F) ℓ) (ρ : Dev nD → PrngReg) : Dev nD → Valuation τ sig (Elt F) :=
  fun c b => m (c, b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) := out (p := 0) (W1 m ρ) (dat0 (V1 m ρ)) c
theorem W2_arr (c : Dev nD) (w : Fin cfg0.W) :
    W2 m ρ c (Proc.devRef .tc (Pipeline.arrRef spec0 w)) = (dat0 (V1 m ρ) c).arrAt w cfg0.N :=
  out_arr _ _ launch0 c w
theorem W2_keep (c : Dev nD) (r : Ref sig .tc) (h : r ∉ ([main_v3] : List (Ref sig .tc))) :
    W2 m ρ c (Proc.devRef .tc r) = W1 m ρ c (Proc.devRef .tc r) :=
  out_keep _ _ launch0 (A_eq0 _) (by decide) c r h

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b

def W8 (c : Dev nD) : Valuation τ sig (Elt F) := out (p := 1) (W7 m ρ) (dat1 (V7 m ρ)) c
theorem W8_arr (c : Dev nD) (w : Fin cfg1.W) :
    W8 m ρ c (Proc.devRef .tc (Pipeline.arrRef spec1 w)) = (dat1 (V7 m ρ) c).arrAt w cfg1.N :=
  out_arr _ _ launch1 c w
theorem W8_keep (c : Dev nD) (r : Ref sig .tc) (h : r ∉ ([main_v16_0, main_v16_1, main_v16_2, main_v16_3] : List (Ref sig .tc))) :
    W8 m ρ c (Proc.devRef .tc r) = W7 m ρ c (Proc.devRef .tc r) :=
  out_keep _ _ launch1 (A_eq1 _) (by decide) c r h

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) := out (p := 2) (W9 m ρ) (dat2 (V9 m ρ)) c
theorem W10_arr (c : Dev nD) (w : Fin cfg2.W) :
    W10 m ρ c (Proc.devRef .tc (Pipeline.arrRef spec2 w)) = (dat2 (V9 m ρ) c).arrAt w cfg2.N :=
  out_arr _ _ launch2 c w
theorem W10_keep (c : Dev nD) (r : Ref sig .tc) (h : r ∉ ([main_v24_0, main_v24_1, main_v24_2] : List (Ref sig .tc))) :
    W10 m ρ c (Proc.devRef .tc r) = W9 m ρ c (Proc.devRef .tc r) :=
  out_keep _ _ launch2 (A_eq2 _) (by decide) c r h

abbrev W11 : Dev nD → Valuation τ sig (Elt F) := fun c => StableHlo.after hostOps3 (W10 m ρ c)
abbrev V11 : (c : Dev nD) → (b : Ref sig .tc) → Buf (Elt F) ((c : Thread nD τ).loc b) := fun c b => W11 m ρ c b

def W12 (c : Dev nD) : Valuation τ sig (Elt F) := out (p := 3) (W11 m ρ) (dat3 (V11 m ρ)) c
theorem W12_arr (c : Dev nD) (w : Fin cfg3.W) :
    W12 m ρ c (Proc.devRef .tc (Pipeline.arrRef spec3 w)) = (dat3 (V11 m ρ) c).arrAt w cfg3.N :=
  out_arr _ _ launch3 c w
theorem W12_keep (c : Dev nD) (r : Ref sig .tc) (h : r ∉ ([main_v37] : List (Ref sig .tc))) :
    W12 m ρ c (Proc.devRef .tc r) = W11 m ρ c (Proc.devRef .tc r) :=
  out_keep _ _ launch3 (A_eq3 _) (by decide) c r h

abbrev W13 : Dev nD → Valuation τ sig (Elt F) := fun c => StableHlo.after hostOps4 (W12 m ρ c)
abbrev V13 : (c : Dev nD) → (b : Ref sig .tc) → Buf (Elt F) ((c : Thread nD τ).loc b) := fun c b => W13 m ρ c b

def W14 (c : Dev nD) : Valuation τ sig (Elt F) := out (p := 4) (W13 m ρ) (dat4 (V13 m ρ)) c
theorem W14_arr (c : Dev nD) (w : Fin cfg4.W) :
    W14 m ρ c (Proc.devRef .tc (Pipeline.arrRef spec4 w)) = (dat4 (V13 m ρ) c).arrAt w cfg4.N :=
  out_arr _ _ launch4 c w
theorem W14_keep (c : Dev nD) (r : Ref sig .tc) (h : r ∉ ([main_v48] : List (Ref sig .tc))) :
    W14 m ρ c (Proc.devRef .tc r) = W13 m ρ c (Proc.devRef .tc r) :=
  out_keep _ _ launch4 (A_eq4 _) (by decide) c r h

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
theorem W4_keep (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_keep (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_keep (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W7_keep (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W9_keep (c : Dev nD) (r : Ref sig .tc) (h : r ∉ hostOps2_W) : W9 m ρ c (Proc.devRef .tc r) = W8 m ρ c (Proc.devRef .tc r) :=
  StableHlo.after_of_writes_sub hostOps2 _ hostOps2_writes h
theorem W11_keep (c : Dev nD) (r : Ref sig .tc) (h : r ∉ hostOps3_W) : W11 m ρ c (Proc.devRef .tc r) = W10 m ρ c (Proc.devRef .tc r) :=
  StableHlo.after_of_writes_sub hostOps3 _ hostOps3_writes h
theorem W13_keep (c : Dev nD) (r : Ref sig .tc) (h : r ∉ hostOps4_W) : W13 m ρ c (Proc.devRef .tc r) = W12 m ρ c (Proc.devRef .tc r) :=
  StableHlo.after_of_writes_sub hostOps4 _ hostOps4_writes h

-- A buffer that neither step writes keeps its contents across both.
theorem keep_step {W W' : Valuation τ sig (Elt F)} {l l' : List (Ref sig .tc)} {r : Ref sig .tc} {x}
    (hk : r ∉ l → W' (Proc.devRef .tc r) = W (Proc.devRef .tc r)) (hp : r ∉ l' → W (Proc.devRef .tc r) = x) (h : r ∉ l ++ l') :
    W' (Proc.devRef .tc r) = x :=
  (hk fun a => h (List.mem_append_left _ a)).trans (hp fun a => h (List.mem_append_right _ a))

theorem W14_launch (c : Dev nD) (r : Ref sig .tc)
    (h : r ∉ List.flatten [[main_v48], hostOps4_W, [main_v37], hostOps3_W, [main_v24_0, main_v24_1, main_v24_2], hostOps2_W,
      [main_v16_0, main_v16_1, main_v16_2, main_v16_3], hostOps1_4_W, hostOps1_3_W, hostOps1_2_W, hostOps1_1_W, hostOps1_W,
      [main_v3], hostOps0_W]) :
    W14 m ρ c (Proc.devRef .tc r) = m ((c : Thread nD τ).loc r) :=
  keep_step (W14_keep m ρ c r) (keep_step (W13_keep m ρ c r) (keep_step (W12_keep m ρ c r) (keep_step (W11_keep m ρ c r)
    (keep_step (W10_keep m ρ c r) (keep_step (W9_keep m ρ c r) (keep_step (W8_keep m ρ c r) (keep_step (W7_keep m ρ c r)
    (keep_step (W6_keep m ρ c r) (keep_step (W5_keep m ρ c r) (keep_step (W4_keep m ρ c r) (keep_step (W3_keep m ρ c r)
    (keep_step (W2_keep m ρ c r) (keep_step (W1_keep m ρ c r) fun _ => rfl))))))))))))) h

theorem W14_main_arg0 (c : Dev nD) : W14 m ρ c (Proc.devRef .tc main_arg0) = m ((c : Thread nD τ).loc main_arg0) :=
  W14_launch m ρ c _ (by decide)
theorem W14_main_arg1 (c : Dev nD) : W14 m ρ c (Proc.devRef .tc main_arg1) = m ((c : Thread nD τ).loc main_arg1) :=
  W14_launch m ρ c _ (by decide)
theorem W14_main_arg2 (c : Dev nD) : W14 m ρ c (Proc.devRef .tc main_arg2) = m ((c : Thread nD τ).loc main_arg2) :=
  W14_launch m ρ c _ (by decide)
theorem W14_main_arg3 (c : Dev nD) : W14 m ρ c (Proc.devRef .tc main_arg3) = m ((c : Thread nD τ).loc main_arg3) :=
  W14_launch m ρ c _ (by decide)
theorem W14_main_arg4 (c : Dev nD) : W14 m ρ c (Proc.devRef .tc main_arg4) = m ((c : Thread nD τ).loc main_arg4) :=
  W14_launch m ρ c _ (by decide)
theorem W14_main_arg5 (c : Dev nD) : W14 m ρ c (Proc.devRef .tc main_arg5) = m ((c : Thread nD τ).loc main_arg5) :=
  W14_launch m ρ c _ (by decide)
theorem W14_main_arg6 (c : Dev nD) : W14 m ρ c (Proc.devRef .tc main_arg6) = m ((c : Thread nD τ).loc main_arg6) :=
  W14_launch m ρ c _ (by decide)
theorem W14_main_arg7 (c : Dev nD) : W14 m ρ c (Proc.devRef .tc main_arg7) = m ((c : Thread nD τ).loc main_arg7) :=
  W14_launch m ρ c _ (by decide)
theorem W14_main_arg8 (c : Dev nD) : W14 m ρ c (Proc.devRef .tc main_arg8) = m ((c : Thread nD τ).loc main_arg8) :=
  W14_launch m ρ c _ (by decide)
theorem W14_main_arg9 (c : Dev nD) : W14 m ρ c (Proc.devRef .tc main_arg9) = m ((c : Thread nD τ).loc main_arg9) :=
  W14_launch m ρ c _ (by decide)
theorem W14_main_arg10 (c : Dev nD) : W14 m ρ c (Proc.devRef .tc main_arg10) = m ((c : Thread nD τ).loc main_arg10) :=
  W14_launch m ρ c _ (by decide)
theorem W14_main_arg11 (c : Dev nD) : W14 m ρ c (Proc.devRef .tc main_arg11) = m ((c : Thread nD τ).loc main_arg11) :=
  W14_launch m ρ c _ (by decide)
theorem W14_main_arg12 (c : Dev nD) : W14 m ρ c (Proc.devRef .tc main_arg12) = m ((c : Thread nD τ).loc main_arg12) :=
  W14_launch m ρ c _ (by decide)
theorem W14_main_arg13 (c : Dev nD) : W14 m ρ c (Proc.devRef .tc main_arg13) = m ((c : Thread nD τ).loc main_arg13) :=
  W14_launch m ρ c _ (by decide)
theorem W14_main_arg14 (c : Dev nD) : W14 m ρ c (Proc.devRef .tc main_arg14) = m ((c : Thread nD τ).loc main_arg14) :=
  W14_launch m ρ c _ (by decide)
theorem W14_main_arg15 (c : Dev nD) : W14 m ρ c (Proc.devRef .tc main_arg15) = m ((c : Thread nD τ).loc main_arg15) :=
  W14_launch m ρ c _ (by decide)
theorem W14_main_arg16 (c : Dev nD) : W14 m ρ c (Proc.devRef .tc main_arg16) = m ((c : Thread nD τ).loc main_arg16) :=
  W14_launch m ρ c _ (by decide)

def pdats : (p : Fin 5) → (c : Dev nD) → Dat τ (Elt F) Unit ℕ (UR sig nD τ) ℕ (Pipeline.pin (pcfgs (F := F)) adm p) c
  | ⟨0, _⟩ => dat0 (V1 m ρ)
  | ⟨1, _⟩ => dat1 (V7 m ρ)
  | ⟨2, _⟩ => dat2 (V9 m ρ)
  | ⟨3, _⟩ => dat3 (V11 m ρ)
  | ⟨4, _⟩ => dat4 (V13 m ρ)
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- Entry splits the arrays off the held buffers; exit joins them back at their final contents.
def reg (p : Fin 5) (lf : Pipeline.LaunchFacts (nD := nD) (τ := τ) cfgs p) (Wi : Dev nD → Valuation τ sig (Elt F))
    (hb : ∀ c, BodyObligation (pdats m ρ p c) defs₀ 𝒱₀ () Set.univ)
    (h0 : ∀ c t, (pdats m ρ p c).owed t = 0) (hrec : ∀ c x, x ∈ (pdats m ρ p c).recorded 0) (hq : ∀ c w, (pdats m ρ p c).q w = fullShare)
    (hΦ : ∀ c i, (pdats m ρ p c).Φ i = Pipeline.ΦA (cfgs p).spec c)
    (hA : ∀ c w, (pdats m ρ p c).A w = Wi c (Proc.devRef .tc (Pipeline.arrRef (cfgs p).spec w))) :
    Pipeline.RegionSeg pcfgs adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := T Wi
  post := T (out Wi (pdats m ρ p))
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) pcfgs adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin; rw [h0]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) pcfgs adm lf.win lf.arr_whole c (pdats m ρ) ((pdats m ρ p c).share_full (hq c))
      (fun b => Wi c b) (fun b => out Wi (pdats m ρ p) c b) _
      (fun w => (out_arr Wi _ lf c w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

set_option backward.isDefEq.respectTransparency.types false in
abbrev segs : List (Pipeline.Seg pcfgs adm (pdats m ρ) () defs₀ 𝒱₀ L lv) :=
  [ .host (hseg hostOps0 hostOps0_sub hostOps0_fresh (W0 m ρ)),
    .region (reg m ρ 0 launch0 (W1 m ρ) (body_obligation0 _) (fun _ _ => rfl) (fun _ _ => trivial) (fun _ _ => rfl) (fun _ _ => rfl) (A_eq0 _)),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg m ρ 1 launch1 (W7 m ρ) (body_obligation1 _) (fun _ _ => rfl) (fun _ _ => trivial) (fun _ _ => rfl) (fun _ _ => rfl) (A_eq1 _)),
    .host (hseg hostOps2 hostOps2_sub hostOps2_fresh (W8 m ρ)),
    .region (reg m ρ 2 launch2 (W9 m ρ) (body_obligation2 _) (fun _ _ => rfl) (fun _ _ => trivial) (fun _ _ => rfl) (fun _ _ => rfl) (A_eq2 _)),
    .host (hseg hostOps3 hostOps3_sub hostOps3_fresh (W10 m ρ)),
    .region (reg m ρ 3 launch3 (W11 m ρ) (body_obligation3 _) (fun _ _ => rfl) (fun _ _ => trivial) (fun _ _ => rfl) (fun _ _ => rfl) (A_eq3 _)),
    .host (hseg hostOps4 hostOps4_sub hostOps4_fresh (W12 m ρ)),
    .region (reg m ρ 4 launch4 (W13 m ρ) (body_obligation4 _) (fun _ _ => rfl) (fun _ _ => trivial) (fun _ _ => rfl) (fun _ _ => rfl) (A_eq4 _)) ]

set_option backward.isDefEq.respectTransparency.types false in

theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit_dev pcfgs adm (pdats m ρ) () cellOf_inj emb₁ defs₀ 𝒱₀ L lv m ρ main (fun _ => segs m ρ)
    (fun c Q => by
      rw [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W14 m ρ c) ∗ ∃ r, prngReg c r))
    (hch := fun c => ⟨.rfl, .rfl, .rfl, .rfl, .rfl, .rfl, .rfl, .rfl, .rfl, .rfl, .rfl, .rfl, .rfl, .rfl, sep_assoc.2⟩)
    (hinit := by
      refine Pipeline.initEach L lv fun c => ?_
      rw [show unscopedBufs c (fun b => m ((c : Thread nD τ).loc b)) = _ from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := _)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := hQ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_post m ρ fun s h c => by
    refine ⟨?_, ?_, ?_, ?_, ?_, ?_, ?_, ?_, ?_, ?_, ?_, ?_, ?_, ?_, ?_, ?_, ?_⟩ <;>
      exact (h c _ (mem_uc _ (by decide))).trans (W14_launch m ρ c _ (by decide))

end Cert.KernelIdeal.Run

end
-- ==== Proof.KI.SpecDefs.lean ====
import Idealize.ShloMosaic.Lib.ValueIdx
import Idealize.ShloMosaic.PureOps.Ideal

noncomputable section

namespace Cert.Spec

open Idealize.ShloMosaic Idealize.ShloMosaic.ValueIdx
open scoped BigOperators

abbrev Mat (r c : Nat) : Type := (⟨2, ![r, c]⟩ : Shape).Idx → EReal

abbrev Vec1 (n : Nat) : Type := (⟨1, ![n]⟩ : Shape).Idx → EReal

abbrev IRow (n : Nat) : Type := (⟨1, ![n]⟩ : Shape).Idx → BitVec 32

abbrev zero32 : EReal := Ideal.ofBits .f32 0x00000000#32
abbrev epsAgg : EReal := Ideal.ofBits .f32 0x358637BD#32
abbrev epsBn : EReal := Ideal.ofBits .f32 0x3727C5AC#32
abbrev cNodes : EReal := Ideal.ofBits .f32 0x47435000#32
abbrev cEdges : EReal := Ideal.ofBits .f32 0x49435000#32

def lin {N : Nat} (X : Mat N 128) (W : Mat 128 128) (b : Vec1 128) (n : Fin N) (d : Fin 128) : EReal :=
  (∑ k : Fin 128, X (ix2 n k) * W (ix2 k d)) + b (ix1 d)

def rowOf (idx : IRow 800000) (j : Fin 800000) : Fin 50000 :=
  ⟨min (idx (ix1 j)).toInt.toNat 49999, by omega⟩

section Layer

variable (x : Mat 50000 128) (e : Mat 800000 128) (WA WB WC WD WE : Mat 128 128) (bA bB bC bD bE : Vec1 128)
  (src dst : IRow 800000)

def eij (j : Fin 800000) (d : Fin 128) : EReal :=
  (lin x WD bD (rowOf dst j) d + lin x WE bE (rowOf src j) d) + lin e WC bC j d

def sig (j : Fin 800000) (d : Fin 128) : EReal :=
  Ideal.logistic (eij x e WC WD WE bC bD bE src dst j d)

def into (n : Fin 50000) : Finset (Fin 800000) :=
  Finset.univ.filter fun j : Fin 800000 => (dst (ix1 j)).toInt = (n.val : ℤ)

def num (n : Fin 50000) (d : Fin 128) : EReal :=
  zero32 + ∑ j ∈ into dst n, sig x e WC WD WE bC bD bE src dst j d * lin x WB bB (rowOf src j) d

def den (n : Fin 50000) (d : Fin 128) : EReal :=
  zero32 + ∑ j ∈ into dst n, sig x e WC WD WE bC bD bE src dst j d

def xpre (n : Fin 50000) (d : Fin 128) : EReal :=
  lin x WA bA n d + Ideal.div (num x e WB WC WD WE bB bC bD bE src dst n d) (den x e WC WD WE bC bD bE src dst n d + epsAgg)

end Layer

def bnRef {N : Nat} (a : Fin N → EReal) (cN g b : EReal) (n : Fin N) : EReal :=
  max ((((a n - Ideal.div (zero32 + ∑ i, a i) cN)
      * Ideal.rsqrt (Ideal.div (zero32 + ∑ i, (a i - Ideal.div (zero32 + ∑ i, a i) cN) * (a i - Ideal.div (zero32 + ∑ i, a i) cN)) cN + epsBn))
      * g) + b) zero32

def bnOfSums {N : Nat} (a : Fin N → EReal) (s1 s2 cN g b : EReal) (n : Fin N) : EReal :=
  max ((((a n - Ideal.div s1 cN)
      * Ideal.rsqrt (max (Ideal.div s2 cN - Ideal.div s1 cN * Ideal.div s1 cN) zero32 + epsBn))
      * g) + b) zero32

end Cert.Spec

end
-- ==== Proof.KI.Algebra.lean ====
import Mathlib.Data.EReal.Operations
import Mathlib.Data.EReal.Inv
import Mathlib.Algebra.BigOperators.Fin
import Mathlib.Algebra.Order.BigOperators.Group.Finset
import Mathlib.Logic.Equiv.Fin.Basic
import Mathlib.Tactic.Ring
import Mathlib.Tactic.FieldSimp
import Mathlib.Tactic.Positivity
import Mathlib.Tactic.NormNum
import Idealize.ShloMosaic.PureOps.Ideal
import Idealize.ShloMosaic.PureOps.Ideal.Laws
import proofs.«416831_j26182120636870_3_alg».proof.Proof.KI.SpecDefs

noncomputable section

namespace Cert.Spec

open Idealize.ShloMosaic
open scoped BigOperators

def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem isReal_sum {ι : Type*} (s : Finset ι) (f : ι → EReal) (h : ∀ i ∈ s, IsReal (f i)) :
    IsReal (∑ i ∈ s, f i) :=
  Finset.sum_induction f IsReal (fun _ _ hx hy => hx.add hy) isReal_zero h

theorem IsReal.div {x y : EReal} (hx : IsReal x) (hy : IsReal y) (h0 : y ≠ 0) : IsReal (Ideal.div x y) := by
  obtain ⟨r, rfl⟩ := hx; obtain ⟨s, rfl⟩ := hy
  have hs : s ≠ 0 := EReal.coe_ne_zero.mp h0
  exact ⟨r * (1 / s), by rw [Ideal.div_coe hs, EReal.coe_mul]⟩

theorem IsReal.logistic {x : EReal} (hx : IsReal x) : IsReal (Ideal.logistic x) := by
  obtain ⟨r, rfl⟩ := hx; exact ⟨(1 + Real.exp (-r))⁻¹, Ideal.logistic_coe r⟩

theorem logistic_pos {x : EReal} (hx : IsReal x) : 0 < Ideal.logistic x := by
  obtain ⟨r, rfl⟩ := hx
  rw [Ideal.logistic_coe]
  exact EReal.coe_pos.mpr (by positivity)

theorem sum_nonneg_of_nonneg {ι : Type*} (s : Finset ι) (f : ι → EReal) (h : ∀ i ∈ s, 0 ≤ f i) :
    0 ≤ ∑ i ∈ s, f i :=
  Finset.sum_nonneg h

theorem coe_finset_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

theorem zero32_eq : zero32 = 0 := Ideal.ofBits_zero_f32

theorem isReal_zero32 : IsReal zero32 := ⟨0, zero32_eq.trans EReal.coe_zero.symm⟩

theorem cNodes_eq_cast : cNodes = (((50000 : ℕ) : ℝ) : EReal) := by
  simp [Ideal.ofBits, Ideal.ieee, -EReal.coe_mul]; norm_num

theorem cEdges_eq_cast : cEdges = (((800000 : ℕ) : ℝ) : EReal) := by
  simp [Ideal.ofBits, Ideal.ieee, -EReal.coe_mul]; norm_num

theorem epsAgg_eq : epsAgg = ((8796093 * (2 : ℝ) ^ (-43 : ℤ) : ℝ) : EReal) := by
  simp [Ideal.ofBits, Ideal.ieee, -EReal.coe_mul]

theorem isReal_epsAgg : IsReal epsAgg := ⟨_, epsAgg_eq⟩

theorem epsAgg_pos : 0 < epsAgg := by
  rw [epsAgg_eq]; exact EReal.coe_pos.mpr (by positivity)

theorem sum_blocks {M : Type*} [AddCommMonoid M] {B R N : ℕ} (hN : N = B * R) (f : Fin N → M)
    (g : Fin B → Fin R → Fin N) (hg : ∀ b r, (g b r).val = R * b.val + r.val) :
    ∑ b : Fin B, ∑ r : Fin R, f (g b r) = ∑ i : Fin N, f i := by
  subst hN
  have hg' : ∀ b r, g b r = finProdFinEquiv (b, r) := fun b r =>
    Fin.ext (by rw [hg b r, finProdFinEquiv_apply_val]; exact Nat.add_comm _ _)
  calc ∑ b : Fin B, ∑ r : Fin R, f (g b r)
      = ∑ b : Fin B, ∑ r : Fin R, f (finProdFinEquiv (b, r)) := by simp only [hg']
    _ = ∑ p : Fin B × Fin R, f (finProdFinEquiv p) := (Fintype.sum_prod_type fun p : Fin B × Fin R => f (finProdFinEquiv p)).symm
    _ = ∑ i : Fin (B * R), f i := Equiv.sum_comp finProdFinEquiv f

theorem sum_sq_dev {N : ℕ} (a : Fin N → ℝ) (μ : ℝ) :
    ∑ i, (a i - μ) * (a i - μ) = (∑ i, a i * a i) - 2 * μ * (∑ i, a i) + (N : ℝ) * (μ * μ) := by
  have h1 : ∀ i, (a i - μ) * (a i - μ) = a i * a i - 2 * μ * a i + μ * μ := fun i => by ring
  rw [Finset.sum_congr rfl fun i _ => h1 i, Finset.sum_add_distrib, Finset.sum_sub_distrib, ← Finset.mul_sum,
    Finset.sum_const, Finset.card_univ, Fintype.card_fin, nsmul_eq_mul]

theorem real_variance {N : ℕ} (hN : 0 < N) (a : Fin N → ℝ) :
    (∑ i, a i * a i) * (1 / (N : ℝ)) - (∑ i, a i) * (1 / (N : ℝ)) * ((∑ i, a i) * (1 / (N : ℝ)))
      = (∑ i, (a i - (∑ j, a j) * (1 / (N : ℝ))) * (a i - (∑ j, a j) * (1 / (N : ℝ)))) * (1 / (N : ℝ)) := by
  have hne : (N : ℝ) ≠ 0 := Nat.cast_ne_zero.mpr hN.ne'
  rw [sum_sq_dev]
  field_simp
  ring

theorem real_variance_nonneg {N : ℕ} (a : Fin N → ℝ) (μ : ℝ) :
    0 ≤ (∑ i, (a i - μ) * (a i - μ)) * (1 / (N : ℝ)) :=
  mul_nonneg (Finset.sum_nonneg fun i _ => mul_self_nonneg _) (by positivity)

theorem variance_law {N : ℕ} (hN : 0 < N) (a : Fin N → ℝ) :
    max (Ideal.div (0 + ∑ i, (a i : EReal) * (a i : EReal)) ((N : ℝ) : EReal)
          - Ideal.div (0 + ∑ i, (a i : EReal)) ((N : ℝ) : EReal)
            * Ideal.div (0 + ∑ i, (a i : EReal)) ((N : ℝ) : EReal)) 0
      = Ideal.div (0 + ∑ i, ((a i : EReal) - Ideal.div (0 + ∑ j, (a j : EReal)) ((N : ℝ) : EReal))
                          * ((a i : EReal) - Ideal.div (0 + ∑ j, (a j : EReal)) ((N : ℝ) : EReal)))
          ((N : ℝ) : EReal) := by
  have hne : (N : ℝ) ≠ 0 := Nat.cast_ne_zero.mpr hN.ne'
  simp only [zero_add, ← EReal.coe_mul, ← coe_finset_sum, Ideal.div_coe hne, ← EReal.coe_sub]
  rw [real_variance hN a]
  exact max_eq_left (EReal.coe_nonneg.mpr (real_variance_nonneg a _))

theorem variance_law_isReal {N : ℕ} (hN : 0 < N) (a : Fin N → EReal) (ha : ∀ i, IsReal (a i)) (cN : EReal)
    (hc : cN = ((N : ℝ) : EReal)) :
    max (Ideal.div (zero32 + ∑ i, a i * a i) cN
          - Ideal.div (zero32 + ∑ i, a i) cN * Ideal.div (zero32 + ∑ i, a i) cN) zero32
      = Ideal.div (zero32 + ∑ i, (a i - Ideal.div (zero32 + ∑ j, a j) cN)
                          * (a i - Ideal.div (zero32 + ∑ j, a j) cN)) cN := by
  choose r hr using ha
  obtain rfl : a = fun i => ((r i : ℝ) : EReal) := funext hr
  subst hc
  rw [zero32_eq]
  exact variance_law hN r

theorem bnOfSums_eq_bnRef_of_eq {N : ℕ} (hN : 0 < N) (a : Fin N → EReal) (ha : ∀ i, IsReal (a i))
    (s1 s2 cN g b : EReal) (hs1 : s1 = zero32 + ∑ i, a i) (hs2 : s2 = zero32 + ∑ i, a i * a i)
    (hc : cN = ((N : ℝ) : EReal)) (n : Fin N) :
    bnOfSums a s1 s2 cN g b n = bnRef a cN g b n := by
  subst hs1 hs2
  unfold bnOfSums bnRef
  rw [variance_law_isReal hN a ha cN hc]

end Cert.Spec

end
-- ==== Proof.KI.SpecReal.lean ====
import proofs.«416831_j26182120636870_3_alg».proof.Proof.KI.SpecDefs
import proofs.«416831_j26182120636870_3_alg».proof.Proof.KI.Algebra

noncomputable section

namespace Cert.Spec

open Idealize.ShloMosaic Idealize.ShloMosaic.ValueIdx
open scoped BigOperators

theorem lin_isReal {N : Nat} (X : Mat N 128) (W : Mat 128 128) (b : Vec1 128)
    (hX : ∀ i, IsReal (X i)) (hW : ∀ i, IsReal (W i)) (hb : ∀ i, IsReal (b i)) (n : Fin N) (d : Fin 128) :
    IsReal (lin X W b n d) := by
  unfold lin
  exact (isReal_sum _ _ fun k _ => (hX _).mul (hW _)).add (hb _)

structure RealArgs (x : Mat 50000 128) (e : Mat 800000 128) (WA WB WC WD WE : Mat 128 128)
    (bA bB bC bD bE : Vec1 128) : Prop where
  hx : ∀ i, IsReal (x i)
  he : ∀ i, IsReal (e i)
  hWA : ∀ i, IsReal (WA i)
  hWB : ∀ i, IsReal (WB i)
  hWC : ∀ i, IsReal (WC i)
  hWD : ∀ i, IsReal (WD i)
  hWE : ∀ i, IsReal (WE i)
  hbA : ∀ i, IsReal (bA i)
  hbB : ∀ i, IsReal (bB i)
  hbC : ∀ i, IsReal (bC i)
  hbD : ∀ i, IsReal (bD i)
  hbE : ∀ i, IsReal (bE i)

section Layer

variable {x : Mat 50000 128} {e : Mat 800000 128} {WA WB WC WD WE : Mat 128 128} {bA bB bC bD bE : Vec1 128}
  (h : RealArgs x e WA WB WC WD WE bA bB bC bD bE) (src dst : IRow 800000)

include h

theorem eij_isReal (j : Fin 800000) (d : Fin 128) : IsReal (eij x e WC WD WE bC bD bE src dst j d) := by
  unfold eij
  exact ((lin_isReal x WD bD h.hx h.hWD h.hbD _ d).add (lin_isReal x WE bE h.hx h.hWE h.hbE _ d)).add
    (lin_isReal e WC bC h.he h.hWC h.hbC j d)

theorem sig_isReal (j : Fin 800000) (d : Fin 128) : IsReal (sig x e WC WD WE bC bD bE src dst j d) :=
  (eij_isReal h src dst j d).logistic

theorem sig_pos (j : Fin 800000) (d : Fin 128) : 0 < sig x e WC WD WE bC bD bE src dst j d :=
  logistic_pos (eij_isReal h src dst j d)

theorem num_isReal (n : Fin 50000) (d : Fin 128) : IsReal (num x e WB WC WD WE bB bC bD bE src dst n d) := by
  unfold num
  exact isReal_zero32.add (isReal_sum _ _ fun j _ =>
    (sig_isReal h src dst j d).mul (lin_isReal x WB bB h.hx h.hWB h.hbB _ d))

theorem den_isReal (n : Fin 50000) (d : Fin 128) : IsReal (den x e WC WD WE bC bD bE src dst n d) := by
  unfold den
  exact isReal_zero32.add (isReal_sum _ _ fun j _ => sig_isReal h src dst j d)

theorem den_nonneg (n : Fin 50000) (d : Fin 128) : 0 ≤ den x e WC WD WE bC bD bE src dst n d := by
  unfold den
  rw [zero32_eq, zero_add]
  exact sum_nonneg_of_nonneg _ _ fun j _ => (sig_pos h src dst j d).le

theorem xpre_isReal (n : Fin 50000) (d : Fin 128) :
    IsReal (xpre x e WA WB WC WD WE bA bB bC bD bE src dst n d) := by
  unfold xpre
  have hpos : 0 < den x e WC WD WE bC bD bE src dst n d + epsAgg :=
    epsAgg_pos.trans_le (le_add_of_nonneg_left (den_nonneg h src dst n d))
  exact (lin_isReal x WA bA h.hx h.hWA h.hbA n d).add
    ((num_isReal h src dst n d).div ((den_isReal h src dst n d).add isReal_epsAgg) hpos.ne')

end Layer

end Cert.Spec

end
-- ==== Proof.KI.Args.lean ====
import proofs.«416831_j26182120636870_3_alg».proof.Proof.KI.Run
import proofs.«416831_j26182120636870_3_alg».proof.Proof.KI.SpecDefs
import proofs.«416831_j26182120636870_3_alg».proof.Proof.KI.SpecReal

noncomputable section

namespace Cert.KernelIdeal.Val

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

abbrev aX : FVec Ideal S50000x128 .f32 := m ((c.tc : Thread nD τ).loc main_arg0)
abbrev aE : FVec Ideal S800000x128 .f32 := m ((c.tc : Thread nD τ).loc main_arg1)
abbrev aWA : FVec Ideal S128x128 .f32 := m ((c.tc : Thread nD τ).loc main_arg2)
abbrev abA : FVec Ideal S128 .f32 := m ((c.tc : Thread nD τ).loc main_arg3)
abbrev aWB : FVec Ideal S128x128 .f32 := m ((c.tc : Thread nD τ).loc main_arg4)
abbrev abB : FVec Ideal S128 .f32 := m ((c.tc : Thread nD τ).loc main_arg5)
abbrev aWC : FVec Ideal S128x128 .f32 := m ((c.tc : Thread nD τ).loc main_arg6)
abbrev abC : FVec Ideal S128 .f32 := m ((c.tc : Thread nD τ).loc main_arg7)
abbrev aWD : FVec Ideal S128x128 .f32 := m ((c.tc : Thread nD τ).loc main_arg8)
abbrev abD : FVec Ideal S128 .f32 := m ((c.tc : Thread nD τ).loc main_arg9)
abbrev aWE : FVec Ideal S128x128 .f32 := m ((c.tc : Thread nD τ).loc main_arg10)
abbrev abE : FVec Ideal S128 .f32 := m ((c.tc : Thread nD τ).loc main_arg11)
abbrev aGx : FVec Ideal S128 .f32 := m ((c.tc : Thread nD τ).loc main_arg12)
abbrev aBx : FVec Ideal S128 .f32 := m ((c.tc : Thread nD τ).loc main_arg13)
abbrev aGe : FVec Ideal S128 .f32 := m ((c.tc : Thread nD τ).loc main_arg14)
abbrev aBe : FVec Ideal S128 .f32 := m ((c.tc : Thread nD τ).loc main_arg15)
abbrev aEI : IVec S2x800000 32 := m ((c.tc : Thread nD τ).loc main_arg16)

def aSrc : Cert.Spec.IRow 800000 := fun i => aEI m c (ix2 (0 : Fin 2) (⟨(i 0).val, (i 0).isLt⟩ : Fin 800000))

def aDst : Cert.Spec.IRow 800000 := fun i => aEI m c (ix2 (1 : Fin 2) (⟨(i 0).val, (i 0).isLt⟩ : Fin 800000))

theorem aSrc_apply (j : Fin 800000) : aSrc m c (ix1 j) = aEI m c (ix2 (0 : Fin 2) j) := rfl
theorem aDst_apply (j : Fin 800000) : aDst m c (ix1 j) = aEI m c (ix2 (1 : Fin 2) j) := rfl

structure InRange : Prop where
  src_lo : ∀ j : Fin 800000, 0 ≤ (aSrc m c (ix1 j)).toInt
  src_hi : ∀ j : Fin 800000, (aSrc m c (ix1 j)).toInt < 50000
  dst_lo : ∀ j : Fin 800000, 0 ≤ (aDst m c (ix1 j)).toInt
  dst_hi : ∀ j : Fin 800000, (aDst m c (ix1 j)).toInt < 50000

abbrev Reals : Prop :=
  Cert.Spec.RealArgs (aX m c) (aE m c) (aWA m c) (aWB m c) (aWC m c) (aWD m c) (aWE m c)
    (abA m c) (abB m c) (abC m c) (abD m c) (abE m c)

def nodeRow (i : Fin 10) (r : Fin 5000) : Fin 50000 := ⟨5000 * i.val + r.val, by omega⟩

def edgeRow (i : Fin 125) (r : Fin 6400) : Fin 800000 := ⟨6400 * i.val + r.val, by omega⟩

theorem nodeRow_val (i : Fin 10) (r : Fin 5000) : (nodeRow i r).val = 5000 * i.val + r.val := rfl
theorem edgeRow_val (i : Fin 125) (r : Fin 6400) : (edgeRow i r).val = 6400 * i.val + r.val := rfl

abbrev qEij (j : Fin 800000) (d : Fin 128) : EReal :=
  Cert.Spec.eij (aX m c) (aE m c) (aWC m c) (aWD m c) (aWE m c) (abC m c) (abD m c) (abE m c) (aSrc m c) (aDst m c) j d
abbrev qSig (j : Fin 800000) (d : Fin 128) : EReal :=
  Cert.Spec.sig (aX m c) (aE m c) (aWC m c) (aWD m c) (aWE m c) (abC m c) (abD m c) (abE m c) (aSrc m c) (aDst m c) j d
abbrev qNum (n : Fin 50000) (d : Fin 128) : EReal :=
  Cert.Spec.num (aX m c) (aE m c) (aWB m c) (aWC m c) (aWD m c) (aWE m c) (abB m c) (abC m c) (abD m c) (abE m c) (aSrc m c) (aDst m c) n d
abbrev qDen (n : Fin 50000) (d : Fin 128) : EReal :=
  Cert.Spec.den (aX m c) (aE m c) (aWC m c) (aWD m c) (aWE m c) (abC m c) (abD m c) (abE m c) (aSrc m c) (aDst m c) n d
abbrev qXpre (n : Fin 50000) (d : Fin 128) : EReal :=
  Cert.Spec.xpre (aX m c) (aE m c) (aWA m c) (aWB m c) (aWC m c) (aWD m c) (aWE m c)
    (abA m c) (abB m c) (abC m c) (abD m c) (abE m c) (aSrc m c) (aDst m c) n d

end Cert.KernelIdeal.Val

end
-- ==== Proof.KI.ValBn.lean ====
import proofs.«416831_j26182120636870_3_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Val

open Cert.KernelIdeal Idealize.ShloMosaic Idealize.ShloMosaic.ValueIdx Idealize.ShloMosaic.Pipeline

/-- The normalisation of one entry from its column's mean, variance, scale and shift. -/
def bnAt (x m v g b : Ideal .f32) : Ideal .f32 :=
  max ((((x - m) * Ideal.rsqrt (max v (Ideal.ofBits .f32 0#32) + Ideal.ofBits .f32 0x3727C5AC#32)) * g) + b) (Ideal.ofBits .f32 0#32)

/-- An array of any number of rows normalised column by column from one row each of means, variances, scales and shifts. -/
def Gbn {N : ℕ} (a : FVec Ideal ⟨2, ![N, 128]⟩ .f32) (mean var gamma beta : FVec Ideal S1x128 .f32) : FVec Ideal ⟨2, ![N, 128]⟩ .f32 :=
  fun i => bnAt (a i) (mean (ix2 0 (i 1))) (var (ix2 0 (i 1))) (gamma (ix2 0 (i 1))) (beta (ix2 0 (i 1)))

theorem hz : (![0, 0] : Fin 2 → Nat) = fun _ => 0 :=
  funext fun a => by match a with | ⟨0, _⟩ => rfl | ⟨1, _⟩ => rfl

/-- The embedding keeps the column and a column's statistics do not depend on the row, so such a block is a block of the normalised array. -/
theorem Gbn_blk {N nb : ℕ} (a : FVec Ideal ⟨2, ![N, 128]⟩ .f32) (mean var gamma beta : FVec Ideal S1x128 .f32)
    (emb : (⟨2, ![nb, 128]⟩ : Shape).Idx → (⟨2, ![N, 128]⟩ : Shape).Idx) (hemb : ∀ y, (emb y 1).val = (y 1).val)
    (x0 : FVec Ideal ⟨2, ![nb, 128]⟩ .f32) (xm xv xg xb : FVec Ideal S1x128 .f32)
    (h0 : ∀ y, x0 y = a (emb y)) (hm : ∀ y, xm y = mean y) (hv : ∀ y, xv y = var y) (hg : ∀ y, xg y = gamma y)
    (hb : ∀ y, xb y = beta y) (pay : FVec Ideal ⟨2, ![nb, 128]⟩ .f32)
    (hpay : ∀ p q, pay (ix2 p q) = bnAt (x0 (ix2 p q)) (xm (ix2 0 q)) (xv (ix2 0 q)) (xg (ix2 0 q)) (xb (ix2 0 q))) :
    pay = fun y => Gbn a mean var gamma beta (emb y) := by
  funext y
  obtain ⟨p, q, rfl⟩ : ∃ p q, y = ix2 p q := ⟨y 0, y 1, eq_ix2 y⟩
  rw [hpay, h0, hm, hv, hg, hb]
  unfold Gbn
  rw [show emb (ix2 p q) 1 = q from Fin.ext (hemb _)]

variable {sig : RefSig} {G : Grid} (w w' : Window sig G) (t : Fin G.N)

/-- The offset on an axis is the block index times the block size, here 0. -/
theorem emb_self (h : ∀ a, w.index t a = 0) (y : (w.xblock (G.coords t)).Idx) (y' : w.shape.Idx)
    (hy : ∀ a, (y a).val = (y' a).val) : (w.rect t).emb y = y' :=
  funext fun a => Fin.ext ((w.rect_emb_val_of_index_zero t a (h a) y).trans (hy a))

/-- An element's coordinate in the array is the block index times the block size plus its coordinate in the block. -/
theorem emb_val_congr (y : (w.xblock (G.coords t)).Idx) (y' : (w'.xblock (G.coords t)).Idx)
    (a : Fin w.shape.rank) (a' : Fin w'.shape.rank) (hi : w.index t a = w'.index t a') (hs : w.size a = w'.size a')
    (hy : (y a).val = (y' a').val) : ((w.rect t).emb y a).val = ((w'.rect t).emb y' a').val := by
  rw [w.rect_emb_val, w'.rect_emb_val, hi, hs, hy]

/-- r / nb * nb ≤ r < r / nb * nb + nb. -/
theorem mem_rowBlock {N nb : ℕ} (hnb : 0 < nb) (i : (⟨2, ![N, 128]⟩ : Shape).Idx) {off size : Fin 2 → ℕ}
    {inb : ∀ a, off a + size a ≤ (⟨2, ![N, 128]⟩ : Shape).size a}
    (hoff : ∀ a, off a = ![(i 0).val / nb * nb, 0] a) (hsize : ∀ a, size a = ![nb, 128] a) :
    i ∈ (Rect.unit off size inb).set := by
  rw [Rect.mem_set_unit]
  intro a
  rw [hoff, hsize]
  match a with
  | ⟨0, _⟩ => exact ⟨Nat.div_mul_le_self _ _, Nat.lt_div_mul_add hnb⟩
  | ⟨1, _⟩ => exact ⟨Nat.zero_le _, (Nat.zero_add _).symm ▸ (i 1).isLt⟩

end Cert.KernelIdeal.Val

end
-- ==== Proof.KI.Val0.lean ====
import proofs.«416831_j26182120636870_3_alg».proof.Proof.KI.Region0
import proofs.«416831_j26182120636870_3_alg».proof.Proof.KI.ValBn
import Idealize.ShloMosaic.PureOps.Ideal.Laws

noncomputable section

namespace Cert.KernelIdeal.Val

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)
open scoped BigOperators

def G0_3 (x : FVec Ideal S50000x128 .f32) (w : FVec Ideal S128x512 .f32) (b : FVec Ideal S1x512 .f32) :
    FVec Ideal S50000x512 .f32 :=
  fun i => (∑ k : Fin 128, x (ix2 (⟨(i 0).val, idx2_lt0 i⟩ : Fin 50000) k) * w (ix2 k (⟨(i 1).val, idx2_lt1 i⟩ : Fin 512)))
    + b (ix2 (0 : Fin 1) (⟨(i 1).val, idx2_lt1 i⟩ : Fin 512))

theorem G0_3_apply (x : FVec Ideal S50000x128 .f32) (w : FVec Ideal S128x512 .f32) (b : FVec Ideal S1x512 .f32)
    (n : Fin 50000) (q : Fin 512) :
    G0_3 x w b (ix2 n q) = (∑ k : Fin 128, x (ix2 n k) * w (ix2 k q)) + b (ix2 (0 : Fin 1) q) := rfl

theorem lhs0_0 (i : S5000x512.Idx) (s : dot_S5000x128_S128x512_S5000x512_1_0_0_1_n_n.contr.Idx) :
    (dot_S5000x128_S128x512_S5000x512_1_0_0_1_n_n.lhsIdx i s 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
theorem rhs0_1 (i : S5000x512.Idx) (s : dot_S5000x128_S128x512_S5000x512_1_0_0_1_n_n.contr.Idx) :
    (dot_S5000x128_S128x512_S5000x512_1_0_0_1_n_n.rhsIdx i s 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

theorem matmul0_apply (x0 : FVec Ideal S5000x128 .f32) (x1 : FVec Ideal S128x512 .f32) (p : Fin 5000) (q : Fin 512) :
    matmul dot_S5000x128_S128x512_S5000x512_1_0_0_1_n_n (some .fp32) x0 x1 (constant (F := Ideal) S5000x512 .f32 0x00000000#32) (ix2 p q)
      = ∑ k : Fin 128, x0 (ix2 p k) * x1 (ix2 k q) := by
  simp only [matmul]
  rw [Ideal.matmul_constant_zero_apply, ← Equiv.sum_comp (contrEquiv1 dot_S5000x128_S128x512_S5000x512_1_0_0_1_n_n 128 rfl rfl).symm]
  refine Finset.sum_congr rfl fun k _ => ?_
  have hk := contrEquiv1_symm_val dot_S5000x128_S128x512_S5000x512_1_0_0_1_n_n 128 rfl rfl k
  have el : dot_S5000x128_S128x512_S5000x512_1_0_0_1_n_n.lhsIdx (ix2 p q) ((contrEquiv1 dot_S5000x128_S128x512_S5000x512_1_0_0_1_n_n 128 rfl rfl).symm k) = ix2 p k :=
    funext fun a => Fin.ext (match a with | ⟨0, _⟩ => lhs0_0 _ _ | ⟨1, _⟩ => (DotDims.lhsIdx_val_of_single _ rfl _ _).trans hk)
  have er : dot_S5000x128_S128x512_S5000x512_1_0_0_1_n_n.rhsIdx (ix2 p q) ((contrEquiv1 dot_S5000x128_S128x512_S5000x512_1_0_0_1_n_n 128 rfl rfl).symm k) = ix2 k q :=
    funext fun a => Fin.ext (match a with | ⟨0, _⟩ => (DotDims.rhsIdx_val_of_single _ rfl _ _).trans hk | ⟨1, _⟩ => rhs0_1 _ _)
  rw [el, er]

theorem pay0_apply (x0 : Vec Ideal S5000x128 .f32) (x1 : Vec Ideal S128x512 .f32) (x2 : Vec Ideal S1x512 .f32)
    (p : Fin 5000) (q : Fin 512) :
    k0_pay1 x0 x1 x2 (ix2 p q) = (∑ k : Fin 128, x0 (ix2 p k) * x1 (ix2 k q)) + x2 (ix2 (0 : Fin 1) q) := by
  unfold k0_pay1
  have e1 : shapeCast S128x512 x1 shapeCasts_S128x512_S128x512 = x1 := shapeCast_self x1 _
  have e2 : shapeCast S1x512 x2 shapeCasts_S1x512_S1x512 = x2 := shapeCast_self x2 _
  show (matmul dot_S5000x128_S128x512_S5000x512_1_0_0_1_n_n (some .fp32) x0 (shapeCast S128x512 x1 shapeCasts_S128x512_S128x512)
        (constant (F := Ideal) S5000x512 .f32 0x00000000#32) (ix2 p q))
      + (broadcastTo S5000x512 (shapeCast S1x512 x2 shapeCasts_S1x512_S1x512) broadcasts_S1x512_S5000x512 (ix2 p q)) = _
  rw [e1, e2, matmul0_apply, broadcastTo_1b_ab_apply]

private theorem idx0 : ∀ (t : Fin cfg0.N) (a : Fin 2),
    win0_3.index t a * win0_3.size a = ![t.val * 5000, 0] a ∧ win0_0.index t a * win0_0.size a = ![t.val * 5000, 0] a
    ∧ win0_1.index t a = 0 ∧ win0_2.index t a = 0 :=
  (by decide +kernel : ∀ t : Fin grid0.N, _)

theorem pay0_eq (X : FVec Ideal S50000x128 .f32) (W : FVec Ideal S128x512 .f32) (B : FVec Ideal S1x512 .f32)
    (x0 : Vec Ideal S5000x128 .f32) (x1 : Vec Ideal S128x512 .f32) (x2 : Vec Ideal S1x512 .f32) (tv : Nat)
    (h0 : ∀ (p : Fin 5000) (k : Fin 128) (n : Fin 50000), n.val = 5000 * tv + p.val → x0 (ix2 p k) = X (ix2 n k))
    (h1 : ∀ (k : Fin 128) (q : Fin 512), x1 (ix2 k q) = W (ix2 k q))
    (h2 : ∀ (u : Fin 1) (q : Fin 512), x2 (ix2 u q) = B (ix2 u q))
    (j : S5000x512.Idx) (i : S50000x512.Idx) (hi0 : (i 0).val = 5000 * tv + (j 0).val) (hi1 : (i 1).val = (j 1).val) :
    k0_pay1 x0 x1 x2 j = G0_3 X W B i := by
  obtain ⟨p, q, rfl⟩ : ∃ (p : Fin 5000) (q : Fin 512), j = ix2 p q := ⟨j 0, j 1, eq_ix2 j⟩
  obtain ⟨n, q', rfl⟩ : ∃ (n : Fin 50000) (q' : Fin 512), i = ix2 n q' := ⟨i 0, i 1, eq_ix2 i⟩
  have hn : n.val = 5000 * tv + p.val := hi0
  obtain rfl : q' = q := Fin.ext hi1
  rw [pay0_apply, G0_3_apply, h2 0 q']
  exact congrArg (· + B (ix2 (0 : Fin 1) q')) (Finset.sum_congr rfl fun k _ => by rw [h0 p k n hn, h1 k q'])

variable (V : (c : Dev nD) → (b : Ref sig .tc) → Buf (Elt Ideal) ((c : Thread nD τ).loc b))

theorem flushed0_3_eq (c : Dev nD) (t : Fin cfg0.N) :
    (dat0 V c).flushed 3 t
      = ((cfg0.win 3).blk t).view.read (Elt Ideal) (G0_3 (V c main_arg0) (V c main_v0) (V c main_v2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x512) hz, View.ld_unit_zero (S := S1x512) hz]
  funext j
  show k0_pay1 (iblk0 V c 0 t) (iblk0 V c 1 t) (iblk0 V c 2 t) j
    = G0_3 (V c main_arg0) (V c main_v0) (V c main_v2) (((cfg0.win 3).blk t).view.emb j)
  exact pay0_eq (V c main_arg0) (V c main_v0) (V c main_v2) (iblk0 V c 0 t) (iblk0 V c 1 t) (iblk0 V c 2 t) t.val
    (fun p k n hn => congrArg (V c main_arg0) (funext fun a => Fin.ext ((win0_0.rect_emb_val t (ix2 p k) a).trans (by
      rw [(idx0 t a).2.1]
      match a with
      | ⟨0, _⟩ => show t.val * 5000 + p.val = n.val; omega
      | ⟨1, _⟩ => exact Nat.zero_add _))))
    (fun k q => congrArg (V c main_v0) (emb_self win0_1 t (fun a => (idx0 t a).2.2.1) (ix2 k q) (ix2 k q) fun _ => rfl))
    (fun u q => congrArg (V c main_v2) (emb_self win0_2 t (fun a => (idx0 t a).2.2.2) (ix2 u q) (ix2 u q) fun _ => rfl))
    j (((cfg0.win 3).blk t).view.emb j)
    ((win0_3.rect_emb_val t j 0).trans (by rw [(idx0 t 0).1]; show t.val * 5000 + (j 0).val = _; omega))
    ((win0_3.rect_emb_val t j 1).trans (by rw [(idx0 t 1).1]; exact Nat.zero_add _))

theorem cover0_3_arr (i : S50000x512.Idx) :
    ∃ t : Fin cfg0.N, (cfg0.win 3).flush t = true ∧ i ∈ ((cfg0.win 3).blk t).view.set := by
  have hlt : (i 0).val / 5000 < cfg0.N := lt_of_lt_of_eq (Nat.div_lt_of_lt_mul (i 0).isLt) N_0.symm
  refine ⟨⟨_, hlt⟩, flush0_3 _, (?_ : i ∈ ((View.whole main_v3).slice (win0_3.rect ⟨_, hlt⟩)).set)⟩
  rw [View.set_slice_whole, Rect.mem_set_unit]
  intro a
  rw [(idx0 ⟨_, hlt⟩ a).1]
  match a with
  | ⟨0, _⟩ => exact ⟨Nat.div_mul_le_self _ _, Nat.lt_div_mul_add (by decide)⟩
  | ⟨1, _⟩ => exact ⟨Nat.zero_le _, (Nat.zero_add _).symm ▸ (i 1).isLt⟩

theorem final0_3 (c : Dev nD) :
    (dat0 V c).arrAt 3 cfg0.N = G0_3 (V c main_arg0) (V c main_v0) (V c main_v2) :=
  (dat0 V c).arrAt_eq_of_cover 3 _ (fun t _ => flushed0_3_eq V c t) cover0_3_arr

end Cert.KernelIdeal.Val

end
-- ==== Proof.KI.HostA.lean ====
import proofs.«416831_j26182120636870_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.StableHlo

def hA_cat4c (a b c d : FVec Ideal S128x128 .f32) : FVec Ideal S128x512 .f32 :=
  concatenate S128x512 1 [⟨S128x128, a⟩, ⟨S128x128, b⟩, ⟨S128x128, c⟩, ⟨S128x128, d⟩]
    concatenates_S128x128_S128x128_S128x128_S128x128_S128x512_d1

private theorem cat4c_at (a b c d : FVec Ideal S128x128 .f32) (k : Fin 128) (q : Fin 512) (e : Fin 128) (i : Fin 4)
    (hq : q.val = 128 * i.val + e.val) : hA_cat4c a b c d (ix2 k q) = ![a, b, c, d] i (ix2 k e) := by
  unfold hA_cat4c
  refine concatenate_apply_piece (α := Ideal .f32) (t := S128x512) (1 : Fin S128x512.rank) [⟨S128x128, a⟩, ⟨S128x128, b⟩, ⟨S128x128, c⟩, ⟨S128x128, d⟩]
    concatenates_S128x128_S128x128_S128x128_S128x128_S128x512_d1 (ix2 k q) i.val i.isLt S128x128 (![a, b, c, d] i) ?_ rfl (128 * i.val) ?_
    (ix2 k e) (fun bx hb => ?_) (by show 128 * i.val + e.val = q.val; omega)
  · fin_cases i <;> rfl
  · fin_cases i <;> rfl
  · match bx with
    | ⟨0, _⟩ => rfl
    | ⟨1, _⟩ => exact absurd rfl hb

theorem hA_cat4c_apply0 (a b c d : FVec Ideal S128x128 .f32) (k : Fin 128) (q : Fin 512) (e : Fin 128) (hq : q.val = e.val) :
    hA_cat4c a b c d (ix2 k q) = a (ix2 k e) := cat4c_at a b c d k q e 0 (by rw [hq]; exact (Nat.zero_add _).symm)
theorem hA_cat4c_apply1 (a b c d : FVec Ideal S128x128 .f32) (k : Fin 128) (q : Fin 512) (e : Fin 128) (hq : q.val = 128 + e.val) :
    hA_cat4c a b c d (ix2 k q) = b (ix2 k e) := cat4c_at a b c d k q e 1 hq
theorem hA_cat4c_apply2 (a b c d : FVec Ideal S128x128 .f32) (k : Fin 128) (q : Fin 512) (e : Fin 128) (hq : q.val = 256 + e.val) :
    hA_cat4c a b c d (ix2 k q) = c (ix2 k e) := cat4c_at a b c d k q e 2 hq
theorem hA_cat4c_apply3 (a b c d : FVec Ideal S128x128 .f32) (k : Fin 128) (q : Fin 512) (e : Fin 128) (hq : q.val = 384 + e.val) :
    hA_cat4c a b c d (ix2 k q) = d (ix2 k e) := cat4c_at a b c d k q e 3 hq

def hA_cat4r (a b c d : FVec Ideal S128 .f32) : FVec Ideal S512 .f32 :=
  concatenate S512 0 [⟨S128, a⟩, ⟨S128, b⟩, ⟨S128, c⟩, ⟨S128, d⟩] concatenates_S128_S128_S128_S128_S512_d0

private theorem cat4r_at (a b c d : FVec Ideal S128 .f32) (q : Fin 512) (e : Fin 128) (i : Fin 4)
    (hq : q.val = 128 * i.val + e.val) : hA_cat4r a b c d (ix1 q) = ![a, b, c, d] i (ix1 e) := by
  unfold hA_cat4r
  refine concatenate_apply_piece (α := Ideal .f32) (t := S512) (0 : Fin S512.rank) [⟨S128, a⟩, ⟨S128, b⟩, ⟨S128, c⟩, ⟨S128, d⟩]
    concatenates_S128_S128_S128_S128_S512_d0 (ix1 q) i.val i.isLt S128 (![a, b, c, d] i) ?_ rfl (128 * i.val) ?_
    (ix1 e) (fun bx hb => ?_) (by show 128 * i.val + e.val = q.val; omega)
  · fin_cases i <;> rfl
  · fin_cases i <;> rfl
  · match bx with
    | ⟨0, _⟩ => exact absurd rfl hb

theorem hA_cat4r_apply0 (a b c d : FVec Ideal S128 .f32) (q : Fin 512) (e : Fin 128) (hq : q.val = e.val) :
    hA_cat4r a b c d (ix1 q) = a (ix1 e) := cat4r_at a b c d q e 0 (by rw [hq]; exact (Nat.zero_add _).symm)
theorem hA_cat4r_apply1 (a b c d : FVec Ideal S128 .f32) (q : Fin 512) (e : Fin 128) (hq : q.val = 128 + e.val) :
    hA_cat4r a b c d (ix1 q) = b (ix1 e) := cat4r_at a b c d q e 1 hq
theorem hA_cat4r_apply2 (a b c d : FVec Ideal S128 .f32) (q : Fin 512) (e : Fin 128) (hq : q.val = 256 + e.val) :
    hA_cat4r a b c d (ix1 q) = c (ix1 e) := cat4r_at a b c d q e 2 hq
theorem hA_cat4r_apply3 (a b c d : FVec Ideal S128 .f32) (q : Fin 512) (e : Fin 128) (hq : q.val = 384 + e.val) :
    hA_cat4r a b c d (ix1 q) = d (ix1 e) := cat4r_at a b c d q e 3 hq

def hA_row512 (v : FVec Ideal S512 .f32) : FVec Ideal S1x512 .f32 := shapeCast S1x512 v shapeCasts_S512_S1x512
theorem hA_row512_apply (v : FVec Ideal S512 .f32) (u : Fin 1) (q : Fin 512) : hA_row512 v (ix2 u q) = v (ix1 q) :=
  shapeCast_a_1a_apply v shapeCasts_S512_S1x512 u q

def hA_row128 (v : FVec Ideal S128 .f32) : FVec Ideal S1x128 .f32 := shapeCast S1x128 v shapeCasts_S128_S1x128
theorem hA_row128_apply (v : FVec Ideal S128 .f32) (u : Fin 1) (d : Fin 128) : hA_row128 v (ix2 u d) = v (ix1 d) :=
  shapeCast_a_1a_apply v shapeCasts_S128_S1x128 u d

def hA_colsA (X : FVec Ideal S50000x512 .f32) : FVec Ideal S50000x128 .f32 :=
  extractStridedSlice S50000x128 ![0, 0] X slices_S50000x512_S50000x128_0_0
def hA_colsD (X : FVec Ideal S50000x512 .f32) : FVec Ideal S50000x128 .f32 :=
  extractStridedSlice S50000x128 ![0, 128] X slices_S50000x512_S50000x128_0_128
def hA_colsBE (X : FVec Ideal S50000x512 .f32) : FVec Ideal S50000x256 .f32 :=
  extractStridedSlice S50000x256 ![0, 256] X slices_S50000x512_S50000x256_0_256

theorem hA_colsA_apply (X : FVec Ideal S50000x512 .f32) (n : Fin 50000) (d : Fin 128) (q : Fin 512) (hq : q.val = d.val) :
    hA_colsA X (ix2 n d) = X (ix2 n q) :=
  slice2_axis1_apply 0 X slices_S50000x512_S50000x128_0_0 n d q (by omega)
theorem hA_colsD_apply (X : FVec Ideal S50000x512 .f32) (n : Fin 50000) (d : Fin 128) (q : Fin 512) (hq : q.val = 128 + d.val) :
    hA_colsD X (ix2 n d) = X (ix2 n q) :=
  slice2_axis1_apply 128 X slices_S50000x512_S50000x128_0_128 n d q hq
theorem hA_colsBE_apply (X : FVec Ideal S50000x512 .f32) (n : Fin 50000) (e : Fin 256) (q : Fin 512) (hq : q.val = 256 + e.val) :
    hA_colsBE X (ix2 n e) = X (ix2 n q) :=
  slice2_axis1_apply 256 X slices_S50000x512_S50000x256_0_256 n e q hq

def hA_colsLo (X : FVec Ideal S800000x256 .f32) : FVec Ideal S800000x128 .f32 :=
  extractStridedSlice S800000x128 ![0, 0] X slices_S800000x256_S800000x128_0_0
def hA_colsHi (X : FVec Ideal S800000x256 .f32) : FVec Ideal S800000x128 .f32 :=
  extractStridedSlice S800000x128 ![0, 128] X slices_S800000x256_S800000x128_0_128
theorem hA_colsLo_apply (X : FVec Ideal S800000x256 .f32) (j : Fin 800000) (d : Fin 128) (q : Fin 256) (hq : q.val = d.val) :
    hA_colsLo X (ix2 j d) = X (ix2 j q) :=
  slice2_axis1_apply 0 X slices_S800000x256_S800000x128_0_0 j d q (by omega)
theorem hA_colsHi_apply (X : FVec Ideal S800000x256 .f32) (j : Fin 800000) (d : Fin 128) (q : Fin 256) (hq : q.val = 128 + d.val) :
    hA_colsHi X (ix2 j d) = X (ix2 j q) :=
  slice2_axis1_apply 128 X slices_S800000x256_S800000x128_0_128 j d q hq

def hA_edgeRow0 (I : IVec S2x800000 32) : IVec S800000 32 :=
  shapeCast S800000 (extractStridedSlice S1x800000 ![0, 0] I slices_S2x800000_S1x800000_0_0) shapeCasts_S1x800000_S800000
def hA_edgeRow1 (I : IVec S2x800000 32) : IVec S800000 32 :=
  shapeCast S800000 (extractStridedSlice S1x800000 ![1, 0] I slices_S2x800000_S1x800000_1_0) shapeCasts_S1x800000_S800000
theorem hA_edgeRow0_apply (I : IVec S2x800000 32) (j : Fin 800000) : hA_edgeRow0 I (ix1 j) = I (ix2 (0 : Fin 2) j) := by
  unfold hA_edgeRow0
  rw [shapeCast_1a_a_apply]
  exact slice2_axis0_apply 0 I slices_S2x800000_S1x800000_0_0 (0 : Fin 1) j (0 : Fin 2) rfl
theorem hA_edgeRow1_apply (I : IVec S2x800000 32) (j : Fin 800000) : hA_edgeRow1 I (ix1 j) = I (ix2 (1 : Fin 2) j) := by
  unfold hA_edgeRow1
  rw [shapeCast_1a_a_apply]
  exact slice2_axis0_apply 1 I slices_S2x800000_S1x800000_1_0 (0 : Fin 1) j (1 : Fin 2) rfl

section Stretches

variable (W : Valuation τ sig (Elt Ideal))

theorem host0_v0 : StableHlo.after hostOps0 W (Proc.devRef .tc main_v0)
    = hA_cat4c (W (Proc.devRef .tc main_arg2)) (W (Proc.devRef .tc main_arg8)) (W (Proc.devRef .tc main_arg4)) (W (Proc.devRef .tc main_arg10)) := by
  dsimp only [hostOps0]; after_results; rfl
theorem host0_v2 : StableHlo.after hostOps0 W (Proc.devRef .tc main_v2)
    = hA_row512 (hA_cat4r (W (Proc.devRef .tc main_arg3)) (W (Proc.devRef .tc main_arg9)) (W (Proc.devRef .tc main_arg5)) (W (Proc.devRef .tc main_arg11))) := by
  dsimp only [hostOps0]; after_results; rfl

theorem host1_v4 : StableHlo.after hostOps1 W (Proc.devRef .tc main_v4) = hA_colsA (W (Proc.devRef .tc main_v3)) := by
  dsimp only [hostOps1]; after_results; rfl
theorem host1_v5 : StableHlo.after hostOps1 W (Proc.devRef .tc main_v5) = hA_colsD (W (Proc.devRef .tc main_v3)) := by
  dsimp only [hostOps1]; after_results; rfl
theorem host1_v6 : StableHlo.after hostOps1 W (Proc.devRef .tc main_v6) = hA_colsBE (W (Proc.devRef .tc main_v3)) := by
  dsimp only [hostOps1]; after_results; rfl
theorem host1_v8 : StableHlo.after hostOps1 W (Proc.devRef .tc main_v8) = hA_edgeRow0 (W (Proc.devRef .tc main_arg16)) := by
  dsimp only [hostOps1]; after_results; rfl
theorem host1_v10 : StableHlo.after hostOps1 W (Proc.devRef .tc main_v10) = hA_edgeRow1 (W (Proc.devRef .tc main_arg16)) := by
  dsimp only [hostOps1]; after_results; rfl

theorem host1_2_v12 : StableHlo.after hostOps1_2 W (Proc.devRef .tc main_v12) = hA_colsLo (W (Proc.devRef .tc main_v11)) := by
  dsimp only [hostOps1_2]; after_results; rfl
theorem host1_2_v13 : StableHlo.after hostOps1_2 W (Proc.devRef .tc main_v13) = hA_colsHi (W (Proc.devRef .tc main_v11)) := by
  dsimp only [hostOps1_2]; after_results; rfl

theorem host1_4_v15 : StableHlo.after hostOps1_4 W (Proc.devRef .tc main_v15) = hA_row128 (W (Proc.devRef .tc main_arg7)) := by
  dsimp only [hostOps1_4]; after_results; rfl

end Stretches

end Cert.KernelIdeal.Val

end
-- ==== Proof.LibRowScatter.lean ====
import Idealize.ShloMosaic.Lib.ValueIdx
import Idealize.ShloMosaic.Lib.IdealHost
import Idealize.ShloMosaic.Lib.Pipeline.Value

noncomputable section

namespace Cert.LibRowScatter

open Idealize.ShloMosaic Idealize.ShloMosaic.ValueIdx
open scoped BigOperators

private theorem getElem_of_eq_singleton {α : Type} {l : List α} {x : α} (h : l = [x]) (k : Nat) (hk : k < l.length) :
    l[k] = x := by
  subst h
  obtain rfl : k = 0 := by simpa using hk
  rfl

theorem gather_rows_apply {α : Type} {N n C w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (l : Fin C) :
    Host.gather d x idx (ix2 e l)
      = x (ix2 ⟨min (idx (ix2 e (0 : Fin 1))).toInt.toNat (N - 1), by omega⟩ l) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 (by rw [hcoll]; exact List.mem_singleton.mpr rfl)
  have hbd := getElem_of_eq_singleton (show d.batchDims = [0] by show Shape.kept _ d.offsetDims = [0]; rw [hoff]; rfl)
  have hod := getElem_of_eq_singleton hoff
  unfold Host.gather
  refine congrArg x (funext fun a => Fin.ext ?_)
  match a with
  | ⟨0, _⟩ =>
    show d.start (ix2 e l) idx 0 + d.batchCoord (ix2 e l) 0 + d.offCoord (ix2 e l) 0 = min (idx (ix2 e (0 : Fin 1))).toInt.toNat (N - 1)
    rw [d.batchCoord_eq_zero _ _ (hb 0), d.offCoord_eq_zero _ _ hk0]
    simp only [Nat.add_zero]
    unfold GatherDims.start
    rw [dif_pos hm0, hsl]
    have hsi : d.siIdx (ix2 e l) ⟨d.startIndexMap.idxOf 0, List.idxOf_lt_length_iff.2 hm0⟩ = ix2 e (0 : Fin 1) := by
      funext b
      refine Fin.ext ?_
      match b with
      | ⟨0, _⟩ =>
        unfold GatherDims.siIdx
        rw [dif_neg (by rw [hivd]; exact Nat.zero_ne_one)]
        unfold GatherDims.siCoord
        show ((ix2 e l : (⟨2, ![n, C]⟩ : Shape).Idx) (d.batchDims[_]'_)).val = e.val
        rw [hbd]; rfl
      | ⟨1, _⟩ =>
        unfold GatherDims.siIdx
        rw [dif_pos (by rw [hivd])]
        show List.idxOf (0 : Fin 2) d.startIndexMap = 0
        rw [hsim]; simp
    rw [hsi]
    rfl
  | ⟨1, _⟩ =>
    show d.start (ix2 e l) idx 1 + d.batchCoord (ix2 e l) 1 + d.offCoord (ix2 e l) 1 = l.val
    rw [d.batchCoord_eq_zero _ _ (hb 1)]
    unfold GatherDims.start GatherDims.offCoord
    rw [dif_neg hm1, dif_pos hk1, hod]
    show 0 + 0 + l.val = l.val
    omega

theorem scatter_rows_resultIdx {N n C w : Nat}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (idx : IVec ⟨2, ![n, 1]⟩ w) (e : Fin n) (l : Fin C) (r : Fin N) (j : Fin C) :
    d.resultIdx? (ix2 e l) idx = some (ix2 r j) ↔ (idx (ix2 e (0 : Fin 1))).toInt = (r.val : ℤ) ∧ l = j := by
  have hsk : d.sKept = [1] := by show Shape.kept _ d.insertedWindowDims = [1]; rw [hins]; rfl
  have hk0 : (0 : Fin 2) ∉ d.sKept := by rw [hsk]; simp
  have hk1 : (1 : Fin 2) ∈ d.sKept := by rw [hsk]; exact List.mem_singleton.mpr rfl
  have hm0 : (0 : Fin 2) ∈ d.scatterDimsToOperandDims := by rw [hsd]; exact List.mem_singleton.mpr rfl
  have hm1 : (1 : Fin 2) ∉ d.scatterDimsToOperandDims := by rw [hsd]; simp
  have hus := getElem_of_eq_singleton (show d.uScatter = [0] by show Shape.kept _ d.updateWindowDims = [0]; rw [huw]; rfl)
  have huwd := getElem_of_eq_singleton huw
  have hsi : d.siIdx (ix2 e l) ⟨d.scatterDimsToOperandDims.idxOf 0, List.idxOf_lt_length_iff.2 hm0⟩ = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      show ((ix2 e l : (⟨2, ![n, C]⟩ : Shape).Idx) (d.uScatter[_]'_)).val = e.val
      rw [hus]; rfl
    | ⟨1, _⟩ =>
      unfold ScatterDims.siIdx
      rw [dif_pos (by rw [hivd])]
      show List.idxOf (0 : Fin 2) d.scatterDimsToOperandDims = 0
      rw [hsd]; simp
  have hst0 : d.start (ix2 e l) idx 0 = (idx (ix2 e (0 : Fin 1))).toInt := by
    unfold ScatterDims.start; rw [dif_pos hm0, hsi]
  have hst1 : d.start (ix2 e l) idx 1 = 0 := by unfold ScatterDims.start; rw [dif_neg hm1]
  have hw0 : d.window (ix2 e l) 0 = 0 := by unfold ScatterDims.window; rw [dif_neg hk0]
  have hw1 : d.window (ix2 e l) 1 = l.val := by
    unfold ScatterDims.window; rw [dif_pos hk1, huwd]; rfl
  unfold ScatterDims.resultIdx?
  split
  · next h =>
    rw [Option.some.injEq]
    constructor
    · intro hEq
      have h0 := congrArg Fin.val (congrFun hEq 0)
      have h1 := congrArg Fin.val (congrFun hEq 1)
      have hh0 := (h 0).1
      simp only [hst0, hw0, hst1, hw1] at h0 h1 hh0
      refine ⟨?_, Fin.ext ?_⟩
      · have : ((idx (ix2 e (0 : Fin 1))).toInt + ((0 : ℕ) : ℤ)).toNat = r.val := h0
        omega
      · have : ((0 : ℤ) + ((l.val : ℕ) : ℤ)).toNat = j.val := h1
        omega
    · rintro ⟨h0, rfl⟩
      funext a
      refine Fin.ext ?_
      match a with
      | ⟨0, _⟩ =>
        show (d.start (ix2 e l) idx 0 + ((d.window (ix2 e l) 0 : ℕ) : ℤ)).toNat = r.val
        rw [hst0, hw0, h0]; omega
      | ⟨1, _⟩ =>
        show (d.start (ix2 e l) idx 1 + ((d.window (ix2 e l) 1 : ℕ) : ℤ)).toNat = l.val
        rw [hst1, hw1]; omega
  · next h =>
    constructor
    · intro hEq; exact absurd hEq (by simp)
    · rintro ⟨h0, rfl⟩
      exfalso
      apply h
      intro a
      match a with
      | ⟨0, _⟩ =>
        show 0 ≤ d.start (ix2 e l) idx 0 + ((d.window (ix2 e l) 0 : ℕ) : ℤ) ∧ d.start (ix2 e l) idx 0 + ((d.window (ix2 e l) 0 : ℕ) : ℤ) < ((N : ℕ) : ℤ)
        rw [hst0, hw0, h0]
        have := r.isLt
        omega
      | ⟨1, _⟩ =>
        show 0 ≤ d.start (ix2 e l) idx 1 + ((d.window (ix2 e l) 1 : ℕ) : ℤ) ∧ d.start (ix2 e l) idx 1 + ((d.window (ix2 e l) 1 : ℕ) : ℤ) < ((C : ℕ) : ℤ)
        rw [hst1, hw1]
        have := l.isLt
        omega

theorem scatterAdd_rows_apply {N n C w : Nat} {φ : FTy}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (x0 : FVec Ideal ⟨2, ![N, C]⟩ φ) (idx : IVec ⟨2, ![n, 1]⟩ w) (upd : FVec Ideal ⟨2, ![n, C]⟩ φ) (r : Fin N) (j : Fin C) :
    Host.scatterAdd d x0 idx upd (ix2 r j)
      = x0 (ix2 r j)
        + ∑ e ∈ Finset.univ.filter (fun e : Fin n => (idx (ix2 e (0 : Fin 1))).toInt = (r.val : ℤ)), upd (ix2 e j) := by
  have hP : ∀ (e : Fin n) (l : Fin C), (d.resultIdx? (ix2 e l) idx = some (ix2 r j))
        ↔ ((idx (ix2 e (0 : Fin 1))).toInt = (r.val : ℤ) ∧ l = j) :=
    fun e l => scatter_rows_resultIdx d huw hins hsd hivd idx e l r j
  unfold Host.scatterAdd
  rw [Ideal.hostScatterAdd_def]
  unfold Ideal.hostScatterAdd
  have key : ∀ y : (⟨2, ![n, C]⟩ : Shape).Idx, d.resultIdx? y idx = some (ix2 r j) →
      (idx (ix2 (y 0) (0 : Fin 1))).toInt = (r.val : ℤ) ∧ ix2 (y 0) j = y := fun y hy => by
    rw [eq_ix2 y] at hy
    obtain ⟨h0, hj⟩ := (hP _ _).1 hy
    exact ⟨h0, by rw [← hj]; exact (eq_ix2 y).symm⟩
  exact congrArg (fun t => x0 (ix2 r j) + t) (Finset.sum_bij' (fun y _ => y 0) (fun e _ => ix2 e j)
    (fun y hy => Finset.mem_filter.2 ⟨Finset.mem_univ _, (key y (Finset.mem_filter.1 hy).2).1⟩)
    (fun e he => Finset.mem_filter.2 ⟨Finset.mem_univ _, (hP e j).2 ⟨(Finset.mem_filter.1 he).2, rfl⟩⟩)
    (fun y hy => (key y (Finset.mem_filter.1 hy).2).2) (fun e _ => rfl)
    fun y hy => congrArg upd (key y (Finset.mem_filter.1 hy).2).2.symm)

end Cert.LibRowScatter

end
-- ==== Proof.KI.HostTake.lean ====
import proofs.«416831_j26182120636870_3_alg».proof.Proof.Gen.KernelIdeal.Launch
import proofs.«416831_j26182120636870_3_alg».proof.Proof.LibRowScatter
import Idealize.ShloMosaic.Lib.StableHlo.Run
import Idealize.ShloMosaic.Lib.StableHlo.Predicate
import Idealize.ShloMosaic.Lib.ValueIdx
import Idealize.ShloMosaic.Lib.DynamicIndex
import Idealize.ShloMosaic.Lib.Pipeline.Value
import Idealize.ShloMosaic.PureOps.Reduce

noncomputable section

namespace Cert.KernelIdeal.Val

open Idealize.ShloMosaic Idealize.ShloMosaic.ValueIdx Cert.KernelIdeal Cert.KernelIdeal.Gen

theorem take_ofBuf_toBuf {sig : RefSig} {Val : EltTy → Type} {T : BufTy} (x : StableHlo.TRef sig T)
    (v : T.Contents Val) : x.ofBuf (x.toBuf v) = v := by
  simp only [StableHlo.TRef.ofBuf, StableHlo.TRef.toBuf, cast_cast, cast_eq]

theorem take_foldl_andi_one {ι : Type} (g : ι → BitVec 1) :
    ∀ (l : List ι) (init : BitVec 1), init = 1#1 → (∀ i ∈ l, g i = 1#1) →
      l.foldl (fun r i => IntOp.andi r (g i)) init = 1#1
  | [], _, h0, _ => h0
  | a :: l, init, h0, h => by
    rw [List.foldl_cons]
    refine take_foldl_andi_one g l _ ?_ (fun i hi => h i (List.mem_cons.2 (Or.inr hi)))
    rw [h0, h a (List.mem_cons.2 (Or.inl rfl))]
    rfl

theorem take_reduce_col_one {n : Nat} (hred : (⟨2, ![n, 1]⟩ : Shape).ReducesTo [1] ⟨1, ![n]⟩)
    (hu : 0 < (⟨0, ![]⟩ : Shape).numel) (x : IVec ⟨2, ![n, 1]⟩ 1) (init : IVec ⟨0, ![]⟩ 1)
    (hinit : ∀ k, init k = 1#1) (j : Fin n) (hx : x (ix2 j (0 : Fin 1)) = 1#1) :
    Host.reduce IntOp.andi x init hred hu (ix1 j) = 1#1 := by
  rw [Host.reduce_eq_foldl]
  refine take_foldl_andi_one x _ _ (hinit _) (fun i hi => ?_)
  rw [List.mem_filter] at hi
  have hd : hred.drop i = ix1 j := of_decide_eq_true hi.2
  have hk : (⟨2, ![n, 1]⟩ : Shape).kept [1] = [0] := rfl
  have h0 : (i 0 : Nat) = j.val := by
    have e := Shape.ReducesTo.drop_apply_val_of_eq hred i 0 0 (by rw [hk]; exact Nat.zero_lt_one)
      ((List.getElem_of_eq hk _).trans rfl)
    rw [hd] at e
    exact e.symm
  have hi' : i = ix2 j (0 : Fin 1) := by
    funext a
    match a with
    | ⟨0, _⟩ => exact Fin.ext h0
    | ⟨1, _⟩ => exact Subsingleton.elim (α := Fin 1) _ _
  rw [hi']
  exact hx

theorem take_bcast_axis0 {α : Type} {n C : Nat}
    (h : (⟨1, ![n]⟩ : Shape).BroadcastsInDim ⟨2, ![n, C]⟩ (![0] : Fin 1 → Fin 2))
    (v : (⟨1, ![n]⟩ : Shape).Idx → α) (j : Fin n) (q : Fin C) :
    broadcastInDim ⟨2, ![n, C]⟩ ![0] h v (ix2 j q) = v (ix1 j) :=
  broadcastInDim_apply _ h v _ _ fun a => match a with
    | ⟨0, _⟩ => by show j.val = if n = 1 then 0 else j.val; have := j.isLt; split <;> omega

theorem take_mask_bit (a : BitVec 32) (hlo : 0 ≤ a.toInt) (hhi : a.toInt < 50000) :
    IntOp.andi (IntOp.cmpi .sge a 0#32) (IntOp.cmpi .sle a 49999#32) = 1#1 := by
  have e0 : (0#32 : BitVec 32).toInt = 0 := by decide
  have e1 : (49999#32 : BitVec 32).toInt = 49999 := by decide
  rw [IntOp.andi_eq_one]
  simp only [IntOp.cmpi, StableHlo.Predicate.ofBool_eq_one_iff, BitVec.sle, decide_eq_true_eq, e0, e1]
  exact ⟨hlo, by omega⟩

section Take

variable {n C : Nat}
  (hb_s_n : (⟨0, ![]⟩ : Shape).BroadcastsInDim ⟨1, ![n]⟩ (![] : Fin 0 → Fin 1))
  (hb_n_n1 : (⟨1, ![n]⟩ : Shape).BroadcastsInDim ⟨2, ![n, 1]⟩ (![0] : Fin 1 → Fin 2))
  (hb_s_n1 : (⟨0, ![]⟩ : Shape).BroadcastsInDim ⟨2, ![n, 1]⟩ (![] : Fin 0 → Fin 2))
  (hb_1_11 : (⟨1, ![1]⟩ : Shape).BroadcastsInDim ⟨2, ![1, 1]⟩ (![1] : Fin 1 → Fin 2))
  (hb_11_n1 : (⟨2, ![1, 1]⟩ : Shape).BroadcastsInDim ⟨2, ![n, 1]⟩ (![0, 1] : Fin 2 → Fin 2))
  (hred : (⟨2, ![n, 1]⟩ : Shape).ReducesTo [1] ⟨1, ![n]⟩)
  (hu : 0 < (⟨0, ![]⟩ : Shape).numel)
  (hb_n_nC : (⟨1, ![n]⟩ : Shape).BroadcastsInDim ⟨2, ![n, C]⟩ (![0] : Fin 1 → Fin 2))
  (hb_s_nC : (⟨0, ![]⟩ : Shape).BroadcastsInDim ⟨2, ![n, C]⟩ (![] : Fin 0 → Fin 2))
  (d : GatherDims ⟨2, ![50000, C]⟩ ⟨2, ![n, 1]⟩ ⟨2, ![n, C]⟩)

def takeIdx (idx : IVec ⟨1, ![n]⟩ 32) : IVec ⟨2, ![n, 1]⟩ 32 :=
  broadcastInDim ⟨2, ![n, 1]⟩ ![0] hb_n_n1
    (select (cmpi .slt idx (broadcastInDim ⟨1, ![n]⟩ ![] hb_s_n (constantI ⟨0, ![]⟩ 32 0#32)))
      (addi idx (broadcastInDim ⟨1, ![n]⟩ ![] hb_s_n (constantI ⟨0, ![]⟩ 32 50000#32))) idx)

def takeOut (tbl : FVec Ideal ⟨2, ![50000, C]⟩ .f32) (idx : IVec ⟨1, ![n]⟩ 32) : FVec Ideal ⟨2, ![n, C]⟩ .f32 :=
  select
    (broadcastInDim ⟨2, ![n, C]⟩ ![0] hb_n_nC
      (Host.reduce IntOp.andi
        (andi
          (cmpi .sge (takeIdx hb_s_n hb_n_n1 idx) (broadcastInDim ⟨2, ![n, 1]⟩ ![] hb_s_n1 (constantI ⟨0, ![]⟩ 32 0#32)))
          (cmpi .sle (takeIdx hb_s_n hb_n_n1 idx)
            (broadcastInDim ⟨2, ![n, 1]⟩ ![0, 1] hb_11_n1
              (broadcastInDim ⟨2, ![1, 1]⟩ ![1] hb_1_11 (constantI ⟨1, ![1]⟩ 32 49999#32)))))
        (constantI ⟨0, ![]⟩ 1 1#1) hred hu))
    (Host.gather d tbl (takeIdx hb_s_n hb_n_n1 idx))
    (broadcastInDim ⟨2, ![n, C]⟩ ![] hb_s_nC (constant ⟨0, ![]⟩ .f32 0x7FC00000#32))

theorem takeIdx_apply (idx : IVec ⟨1, ![n]⟩ 32) (j : Fin n) (hlo : 0 ≤ (idx (ix1 j)).toInt) :
    takeIdx hb_s_n hb_n_n1 idx (ix2 j (0 : Fin 1)) = idx (ix1 j) := by
  unfold takeIdx
  rw [take_bcast_axis0]
  exact select_slt_zero_of_nonneg idx _ _ (ix1 j) hlo

theorem takeOut_apply (hoff : d.offsetDims = [1]) (hcoll : d.collapsedSliceDims = [0]) (hob : d.operandBatchingDims = [])
    (hsim : d.startIndexMap = [0]) (hivd : d.indexVectorDim = 1)
    (tbl : FVec Ideal ⟨2, ![50000, C]⟩ .f32) (idx : IVec ⟨1, ![n]⟩ 32) (j : Fin n) (q : Fin C)
    (hlo : 0 ≤ (idx (ix1 j)).toInt) (hhi : (idx (ix1 j)).toInt < 50000) :
    takeOut hb_s_n hb_n_n1 hb_s_n1 hb_1_11 hb_11_n1 hred hu hb_n_nC hb_s_nC d tbl idx (ix2 j q)
      = tbl (ix2 ⟨(idx (ix1 j)).toInt.toNat, by omega⟩ q) := by
  have hV5 := takeIdx_apply hb_s_n hb_n_n1 idx j hlo
  have hmask : Host.reduce IntOp.andi
        (andi
          (cmpi .sge (takeIdx hb_s_n hb_n_n1 idx) (broadcastInDim ⟨2, ![n, 1]⟩ ![] hb_s_n1 (constantI ⟨0, ![]⟩ 32 0#32)))
          (cmpi .sle (takeIdx hb_s_n hb_n_n1 idx)
            (broadcastInDim ⟨2, ![n, 1]⟩ ![0, 1] hb_11_n1
              (broadcastInDim ⟨2, ![1, 1]⟩ ![1] hb_1_11 (constantI ⟨1, ![1]⟩ 32 49999#32)))))
        (constantI ⟨0, ![]⟩ 1 1#1) hred hu (ix1 j) = 1#1 := by
    refine take_reduce_col_one hred hu _ _ (fun _ => rfl) j ?_
    show IntOp.andi (IntOp.cmpi .sge (takeIdx hb_s_n hb_n_n1 idx (ix2 j (0 : Fin 1))) 0#32)
        (IntOp.cmpi .sle (takeIdx hb_s_n hb_n_n1 idx (ix2 j (0 : Fin 1))) 49999#32) = 1#1
    rw [hV5]
    exact take_mask_bit _ hlo hhi
  unfold takeOut
  rw [ValueIdx.select_apply, take_bcast_axis0, hmask]
  show Host.gather d tbl (takeIdx hb_s_n hb_n_n1 idx) (ix2 j q) = _
  refine (Cert.LibRowScatter.gather_rows_apply (by decide) d hoff hcoll hob hsim hivd tbl _ j q).trans ?_
  refine congrArg (fun r : Fin 50000 => tbl (ix2 r q)) (Fin.ext ?_)
  show min (takeIdx hb_s_n hb_n_n1 idx (ix2 j (0 : Fin 1))).toInt.toNat (50000 - 1) = (idx (ix1 j)).toInt.toNat
  rw [hV5]
  omega

end Take

theorem take_hostOps1_1_main_v11_apply (W : Valuation τ sig (Elt Ideal))
    (hlo : ∀ j : Fin 800000, 0 ≤ ((W (Proc.devRef .tc main_v8) : S800000.Idx → BitVec 32) (ix1 j)).toInt)
    (hhi : ∀ j : Fin 800000, ((W (Proc.devRef .tc main_v8) : S800000.Idx → BitVec 32) (ix1 j)).toInt < 50000)
    (j : Fin 800000) (q : Fin 256) :
    (StableHlo.after (hostOps1_1 (F := Ideal)) W (Proc.devRef .tc main_v11) : S800000x256.Idx → EReal) (ix2 j q)
      = (W (Proc.devRef .tc main_v6) : S50000x256.Idx → EReal)
          (ix2 ⟨((W (Proc.devRef .tc main_v8) : S800000.Idx → BitVec 32) (ix1 j)).toInt.toNat,
            by have := hlo j; have := hhi j; omega⟩ q) := by
  have eO : ∀ v : S800000x256.Idx → EReal,
      (StableHlo.TRef.of main_v11 : StableHlo.TRef sig ⟨S800000x256, .f32⟩).toBuf (Val := Elt Ideal) v = v := fun _ => rfl
  after_results_simp
  simp only [take_ofBuf_toBuf, eO]
  exact takeOut_apply _ _ _ _ _ _ _ _ _ _ rfl rfl rfl rfl rfl _ _ j q (hlo j) (hhi j)

theorem take_hostOps1_3_main_v14_apply (W : Valuation τ sig (Elt Ideal))
    (hlo : ∀ j : Fin 800000, 0 ≤ ((W (Proc.devRef .tc main_v10) : S800000.Idx → BitVec 32) (ix1 j)).toInt)
    (hhi : ∀ j : Fin 800000, ((W (Proc.devRef .tc main_v10) : S800000.Idx → BitVec 32) (ix1 j)).toInt < 50000)
    (j : Fin 800000) (q : Fin 128) :
    (StableHlo.after (hostOps1_3 (F := Ideal)) W (Proc.devRef .tc main_v14) : S800000x128.Idx → EReal) (ix2 j q)
      = (W (Proc.devRef .tc main_v5) : S50000x128.Idx → EReal)
          (ix2 ⟨((W (Proc.devRef .tc main_v10) : S800000.Idx → BitVec 32) (ix1 j)).toInt.toNat,
            by have := hlo j; have := hhi j; omega⟩ q) := by
  have eO : ∀ v : S800000x128.Idx → EReal,
      (StableHlo.TRef.of main_v14 : StableHlo.TRef sig ⟨S800000x128, .f32⟩).toBuf (Val := Elt Ideal) v = v := fun _ => rfl
  after_results_simp
  simp only [take_ofBuf_toBuf, eO]
  exact takeOut_apply _ _ _ _ _ _ _ _ _ _ rfl rfl rfl rfl rfl _ _ j q (hlo j) (hhi j)

end Cert.KernelIdeal.Val

end
-- ==== Proof.KI.Comp1.lean ====
import proofs.«416831_j26182120636870_3_alg».proof.Proof.KI.Args
import proofs.«416831_j26182120636870_3_alg».proof.Proof.KI.Val0
import proofs.«416831_j26182120636870_3_alg».proof.Proof.KI.HostA
import proofs.«416831_j26182120636870_3_alg».proof.Proof.KI.HostTake
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.ValueIdx
open Cert.KernelIdeal.Run (W0 W1 W2 W3 W4 W5 W6 W7 W8 W9 W10 W11 W12 W13 W14)
open scoped BigOperators

variable (m : (ℓ : Loc nD τ sig) → Buf (Elt Ideal) ℓ) (ρ : Dev nD → PrngReg) (c : Dev nD)

theorem comp1_W2_launch (r : Ref sig .tc) (h : r ∉ List.flatten [[main_v3], hostOps0_W]) :
    W2 m ρ c (Proc.devRef .tc r) = m ((c : Thread nD τ).loc r) :=
  Run.keep_step (Run.W2_keep m ρ c r) (Run.keep_step (Run.W1_keep m ρ c r) fun _ => rfl) h
theorem comp1_W6_launch (r : Ref sig .tc)
    (h : r ∉ List.flatten [hostOps1_3_W, hostOps1_2_W, hostOps1_1_W, hostOps1_W, [main_v3], hostOps0_W]) :
    W6 m ρ c (Proc.devRef .tc r) = m ((c : Thread nD τ).loc r) :=
  Run.keep_step (Run.W6_keep m ρ c r) (Run.keep_step (Run.W5_keep m ρ c r) (Run.keep_step (Run.W4_keep m ρ c r)
    (Run.keep_step (Run.W3_keep m ρ c r) (comp1_W2_launch m ρ c r)))) h
theorem comp1_W7_launch (r : Ref sig .tc)
    (h : r ∉ List.flatten [hostOps1_4_W, hostOps1_3_W, hostOps1_2_W, hostOps1_1_W, hostOps1_W, [main_v3], hostOps0_W]) :
    W7 m ρ c (Proc.devRef .tc r) = m ((c : Thread nD τ).loc r) :=
  Run.keep_step (Run.W7_keep m ρ c r) (comp1_W6_launch m ρ c r) h

theorem comp1_V1_arg0 : (Run.V1 m ρ c main_arg0 : FVec Ideal S50000x128 .f32) = aX m c :=
  (Run.W1_keep m ρ c main_arg0 (by decide)).trans rfl
theorem comp1_V1_v0 :
    (Run.V1 m ρ c main_v0 : FVec Ideal S128x512 .f32) = hA_cat4c (aWA m c) (aWD m c) (aWB m c) (aWE m c) :=
  host0_v0 (W0 m ρ c)
theorem comp1_V1_v2 :
    (Run.V1 m ρ c main_v2 : FVec Ideal S1x512 .f32) = hA_row512 (hA_cat4r (abA m c) (abD m c) (abB m c) (abE m c)) :=
  host0_v2 (W0 m ρ c)

theorem comp1_v3_apply (n : Fin 50000) (q : Fin 512) :
    (W2 m ρ c (Proc.devRef .tc main_v3) : FVec Ideal S50000x512 .f32) (ix2 n q)
      = (∑ k : Fin 128, aX m c (ix2 n k) * hA_cat4c (aWA m c) (aWD m c) (aWB m c) (aWE m c) (ix2 k q))
        + hA_cat4r (abA m c) (abD m c) (abB m c) (abE m c) (ix1 q) := by
  have h3 : (W2 m ρ c (Proc.devRef .tc main_v3) : FVec Ideal S50000x512 .f32)
      = G0_3 (aX m c) (hA_cat4c (aWA m c) (aWD m c) (aWB m c) (aWE m c))
          (hA_row512 (hA_cat4r (abA m c) (abD m c) (abB m c) (abE m c))) := by
    refine ((Run.W2_arr m ρ c 3).trans (final0_3 (Run.V1 m ρ) c)).trans ?_
    rw [comp1_V1_arg0 m ρ c, comp1_V1_v0 m ρ c, comp1_V1_v2 m ρ c]
  rw [h3, G0_3_apply, hA_row512_apply]

theorem comp1_v3_lin (W : FVec Ideal S128x128 .f32) (b : FVec Ideal S128 .f32) (n : Fin 50000) (d : Fin 128) (q : Fin 512)
    (hb : hA_cat4r (abA m c) (abD m c) (abB m c) (abE m c) (ix1 q) = b (ix1 d))
    (hW : ∀ k, hA_cat4c (aWA m c) (aWD m c) (aWB m c) (aWE m c) (ix2 k q) = W (ix2 k d)) :
    (W2 m ρ c (Proc.devRef .tc main_v3) : FVec Ideal S50000x512 .f32) (ix2 n q) = Cert.Spec.lin (aX m c) W b n d := by
  rw [comp1_v3_apply, hb]
  unfold Cert.Spec.lin
  exact congrArg (· + b (ix1 d)) (Finset.sum_congr rfl fun k _ => by rw [hW k])

theorem comp1_v8 (j : Fin 800000) :
    (W3 m ρ c (Proc.devRef .tc main_v8) : IVec S800000 32) (ix1 j) = aSrc m c (ix1 j) := by
  have h : (W3 m ρ c (Proc.devRef .tc main_v8) : IVec S800000 32) = _ := host1_v8 (W2 m ρ c)
  rw [h, hA_edgeRow0_apply, aSrc_apply]
  exact congrFun (comp1_W2_launch m ρ c main_arg16 (by decide)) (ix2 (0 : Fin 2) j)

theorem comp1_v4 (n : Fin 50000) (d : Fin 128) :
    (W3 m ρ c (Proc.devRef .tc main_v4) : FVec Ideal S50000x128 .f32) (ix2 n d)
      = Cert.Spec.lin (aX m c) (aWA m c) (abA m c) n d := by
  have h : (W3 m ρ c (Proc.devRef .tc main_v4) : FVec Ideal S50000x128 .f32) = _ := host1_v4 (W2 m ρ c)
  rw [h, hA_colsA_apply _ n d ⟨d.val, by omega⟩ rfl]
  exact comp1_v3_lin m ρ c _ _ n d _ (hA_cat4r_apply0 _ _ _ _ _ d rfl) fun k => hA_cat4c_apply0 _ _ _ _ k _ d rfl

theorem comp1_v10 (j : Fin 800000) :
    (W3 m ρ c (Proc.devRef .tc main_v10) : IVec S800000 32) (ix1 j) = aDst m c (ix1 j) := by
  have h : (W3 m ρ c (Proc.devRef .tc main_v10) : IVec S800000 32) = _ := host1_v10 (W2 m ρ c)
  rw [h, hA_edgeRow1_apply, aDst_apply]
  exact congrFun (comp1_W2_launch m ρ c main_arg16 (by decide)) (ix2 (1 : Fin 2) j)

theorem comp1_row_of_eq (idx : Cert.Spec.IRow 800000) (j : Fin 800000) (x : BitVec 32) (hx : x = idx (ix1 j))
    (h1 : 0 ≤ (idx (ix1 j)).toInt) (h2 : (idx (ix1 j)).toInt < 50000) (h : x.toInt.toNat < 50000) :
    (⟨x.toInt.toNat, h⟩ : Fin 50000) = Cert.Spec.rowOf idx j := by
  subst hx
  apply Fin.ext
  show (idx (ix1 j)).toInt.toNat = min (idx (ix1 j)).toInt.toNat 49999
  omega

theorem comp1_W5_v10_apply (j : Fin 800000) :
    (W5 m ρ c (Proc.devRef .tc main_v10) : IVec S800000 32) (ix1 j) = aDst m c (ix1 j) := by
  rw [Run.W5_keep m ρ c main_v10 (by decide), Run.W4_keep m ρ c main_v10 (by decide)]
  exact comp1_v10 m ρ c j

theorem comp1_v11_apply (hr : InRange m c) (j : Fin 800000) (q : Fin 256) :
    (W4 m ρ c (Proc.devRef .tc main_v11) : FVec Ideal S800000x256 .f32) (ix2 j q)
      = (W3 m ρ c (Proc.devRef .tc main_v6) : FVec Ideal S50000x256 .f32) (ix2 (Cert.Spec.rowOf (aSrc m c) j) q) := by
  have ht := take_hostOps1_1_main_v11_apply (W3 m ρ c)
    (fun j' => by rw [comp1_v8]; exact hr.src_lo j') (fun j' => by rw [comp1_v8]; exact hr.src_hi j') j q
  exact ht.trans (congrArg (fun r : Fin 50000 => (W3 m ρ c (Proc.devRef .tc main_v6) : FVec Ideal S50000x256 .f32) (ix2 r q))
    (comp1_row_of_eq (aSrc m c) j _ (comp1_v8 m ρ c j) (hr.src_lo j) (hr.src_hi j) _))

theorem comp1_v12 (hr : InRange m c) (j : Fin 800000) (d : Fin 128) :
    (W7 m ρ c (Proc.devRef .tc main_v12) : FVec Ideal S800000x128 .f32) (ix2 j d)
      = Cert.Spec.lin (aX m c) (aWB m c) (abB m c) (Cert.Spec.rowOf (aSrc m c) j) d := by
  have hk : (W7 m ρ c (Proc.devRef .tc main_v12) : FVec Ideal S800000x128 .f32) = _ :=
    ((Run.W7_keep m ρ c main_v12 (by decide)).trans (Run.W6_keep m ρ c main_v12 (by decide))).trans (host1_2_v12 (W4 m ρ c))
  rw [hk, hA_colsLo_apply _ j d ⟨d.val, by omega⟩ rfl, comp1_v11_apply m ρ c hr]
  have h : (W3 m ρ c (Proc.devRef .tc main_v6) : FVec Ideal S50000x256 .f32) = _ := host1_v6 (W2 m ρ c)
  rw [h, hA_colsBE_apply _ _ _ ⟨256 + d.val, by omega⟩ rfl]
  exact comp1_v3_lin m ρ c _ _ _ d _ (hA_cat4r_apply2 _ _ _ _ _ d rfl) fun k => hA_cat4c_apply2 _ _ _ _ k _ d rfl

theorem comp1_v13 (hr : InRange m c) (j : Fin 800000) (d : Fin 128) :
    (W7 m ρ c (Proc.devRef .tc main_v13) : FVec Ideal S800000x128 .f32) (ix2 j d)
      = Cert.Spec.lin (aX m c) (aWE m c) (abE m c) (Cert.Spec.rowOf (aSrc m c) j) d := by
  have hk : (W7 m ρ c (Proc.devRef .tc main_v13) : FVec Ideal S800000x128 .f32) = _ :=
    ((Run.W7_keep m ρ c main_v13 (by decide)).trans (Run.W6_keep m ρ c main_v13 (by decide))).trans (host1_2_v13 (W4 m ρ c))
  rw [hk, hA_colsHi_apply _ j d ⟨128 + d.val, by omega⟩ rfl, comp1_v11_apply m ρ c hr]
  have h : (W3 m ρ c (Proc.devRef .tc main_v6) : FVec Ideal S50000x256 .f32) = _ := host1_v6 (W2 m ρ c)
  have hq : 256 + (128 + d.val) = 384 + d.val := by omega
  rw [h, hA_colsBE_apply _ _ _ ⟨256 + (128 + d.val), by omega⟩ rfl]
  exact comp1_v3_lin m ρ c _ _ _ d _ (hA_cat4r_apply3 _ _ _ _ _ d hq) fun k => hA_cat4c_apply3 _ _ _ _ k _ d hq

theorem comp1_v14 (hr : InRange m c) (j : Fin 800000) (d : Fin 128) :
    (W7 m ρ c (Proc.devRef .tc main_v14) : FVec Ideal S800000x128 .f32) (ix2 j d)
      = Cert.Spec.lin (aX m c) (aWD m c) (abD m c) (Cert.Spec.rowOf (aDst m c) j) d := by
  have hk : (W7 m ρ c (Proc.devRef .tc main_v14) : FVec Ideal S800000x128 .f32)
      = W6 m ρ c (Proc.devRef .tc main_v14) := Run.W7_keep m ρ c main_v14 (by decide)
  have ht := take_hostOps1_3_main_v14_apply (W5 m ρ c)
    (fun j' => by rw [comp1_W5_v10_apply]; exact hr.dst_lo j') (fun j' => by rw [comp1_W5_v10_apply]; exact hr.dst_hi j') j d
  rw [hk]
  refine (ht.trans (congrArg (fun r : Fin 50000 => (W5 m ρ c (Proc.devRef .tc main_v5) : FVec Ideal S50000x128 .f32) (ix2 r d))
    (comp1_row_of_eq (aDst m c) j _ (comp1_W5_v10_apply m ρ c j) (hr.dst_lo j) (hr.dst_hi j) _))).trans ?_
  rw [Run.W5_keep m ρ c main_v5 (by decide), Run.W4_keep m ρ c main_v5 (by decide)]
  have h : (W3 m ρ c (Proc.devRef .tc main_v5) : FVec Ideal S50000x128 .f32) = _ := host1_v5 (W2 m ρ c)
  rw [h, hA_colsD_apply _ _ d ⟨128 + d.val, by omega⟩ rfl]
  exact comp1_v3_lin m ρ c _ _ _ d _ (hA_cat4r_apply1 _ _ _ _ _ d rfl) fun k => hA_cat4c_apply1 _ _ _ _ k _ d rfl

theorem comp1_v15 (u : Fin 1) (d : Fin 128) :
    (W7 m ρ c (Proc.devRef .tc main_v15) : FVec Ideal S1x128 .f32) (ix2 u d) = abC m c (ix1 d) := by
  have h : (W7 m ρ c (Proc.devRef .tc main_v15) : FVec Ideal S1x128 .f32) = _ := host1_4_v15 (W6 m ρ c)
  rw [h, hA_row128_apply]
  exact congrFun (comp1_W6_launch m ρ c main_arg7 (by decide)) (ix1 d)

theorem comp1_arg1 : (W7 m ρ c (Proc.devRef .tc main_arg1) : FVec Ideal S800000x128 .f32) = aE m c :=
  comp1_W7_launch m ρ c main_arg1 (by decide)
theorem comp1_arg6 : (W7 m ρ c (Proc.devRef .tc main_arg6) : FVec Ideal S128x128 .f32) = aWC m c :=
  comp1_W7_launch m ρ c main_arg6 (by decide)

end Cert.KernelIdeal.Val

end
-- ==== Proof.KI.Val1.lean ====
import proofs.«416831_j26182120636870_3_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

theorem matmul1_apply (x : FVec Ideal S6400x128 .f32) (w : FVec Ideal S128x128 .f32) (r : Fin 6400) (d : Fin 128) :
    matmul dot_S6400x128_S128x128_S6400x128_1_0_0_1_n_n (some .fp32) x w (constant (F := Ideal) S6400x128 .f32 0x00000000#32) (ix2 r d)
      = ∑ k : Fin 128, x (ix2 r k) * w (ix2 k d) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  exact congrArg₂ (· * ·)
    (congrArg x (Shape.idx_ext₂ rfl ((DotDims.lhsIdx_val_of_single _ rfl _ _).trans hk)))
    (congrArg w (Shape.idx_ext₂ ((DotDims.rhsIdx_val_of_single _ rfl _ _).trans hk) rfl))

namespace Blk

/-- A sum over the rows of an `n`-row block, reshaped to a block with two unit axes. -/
theorem colsum_apply {n : Nat} (h : (⟨2, ![n, 128]⟩ : Shape).Reduces [0] S128) (x : FVec Ideal ⟨2, ![n, 128]⟩ .f32) (hφ : FKind.Formats FTy.f32)
    (hacc : (0x00000000#32 : BitVec 32) = FKind.add.neutral .f32 hφ) (u0 u1 : Fin 1) (d : Fin 128) :
    shapeCast S1x1x128 (shapeCast S1x128 (multiReduction .add [0] S128 x 0x00000000#32 h hφ hacc) shapeCasts_S128_S1x128) shapeCasts_S1x128_S1x1x128 (ix3 u0 u1 d)
      = ∑ r : Fin n, x (ix2 r d) :=
  (shapeCast_ab_1ab_apply _ _ u0 u1 d).trans <| (shapeCast_a_1a_apply _ _ u1 d).trans <|
    (Ideal.multiReduction_add_single x _ h hφ hacc (ix1 d)).trans <|
      Finset.sum_congr rfl fun k _ => congrArg x (Shape.idx_ext₂ rfl rfl)

theorem hz2 : (![0, 0] : Fin 2 → Nat) = fun _ => 0 := funext fun a => by fin_cases a <;> rfl
theorem hz3 : (![0, 0, 0] : Fin 3 → Nat) = fun _ => 0 := funext fun a => by fin_cases a <;> rfl

/-- A block's offset along an axis where its block index is `t`, resp. `0`. -/
theorem off_lead {i b y : Nat} (t : Nat) (h : i = t) : i * b + 1 * y = b * t + y := by rw [h, Nat.one_mul, Nat.mul_comm]
theorem off_zero {i b y : Nat} (h : i = 0) : i * b + 1 * y = y := by rw [h, Nat.zero_mul, Nat.zero_add, Nat.one_mul]
theorem off_unit {i y t : Nat} (h : i = t) (hy : y < 1) : i * 1 + 1 * y = t := by omega

/-- An index lies in the block whose index along the axis is its quotient by the block's size, resp. in a whole axis. -/
theorem in_lead {i b x : Nat} (hb : 0 < b) (h : i = x / b) : i * b ≤ x ∧ x < i * b + b :=
  h ▸ ⟨Nat.div_mul_le_self x b, Nat.lt_div_mul_add hb⟩
theorem in_zero {i b x : Nat} (h : i = 0) (hx : x < b) : i * b ≤ x ∧ x < i * b + b := by subst h; omega

theorem fin3 {P : Fin 3 → Prop} (h0 : P 0) (h1 : P 1) (h2 : P 2) : ∀ a, P a
  | ⟨0, _⟩ => h0 | ⟨1, _⟩ => h1 | ⟨2, _⟩ => h2
theorem idx_ext₃ {n : Fin 3 → ℕ} {x y : (a : Fin 3) → Fin (n a)} (h0 : (x 0 : ℕ) = y 0) (h1 : (x 1 : ℕ) = y 1) (h2 : (x 2 : ℕ) = y 2) : x = y :=
  funext (fin3 (Fin.ext h0) (Fin.ext h1) (Fin.ext h2))

end Blk

open Blk

section Payloads

variable (v0 : FVec Ideal S6400x128 .f32) (v1 : FVec Ideal S128x128 .f32) (v3 : FVec Ideal S1x128 .f32)
  (v7 v9 v15 : FVec Ideal S6400x128 .f32)

theorem k1_pay1_apply (r : Fin 6400) (d : Fin 128) :
    k1_pay1 (F := Ideal) v0 v1 v3 v7 v9 (ix2 r d)
      = (v7 (ix2 r d) + v9 (ix2 r d)) + ((∑ k : Fin 128, v0 (ix2 r k) * v1 (ix2 k d)) + v3 (ix2 (0 : Fin 1) d)) := by
  unfold k1_pay1
  simp only [shapeCast_self, addf_apply, matmul1_apply, broadcastTo_1b_ab_apply]

theorem k1_pay2_apply (r : Fin 6400) (d : Fin 128) :
    k1_pay2 (F := Ideal) v0 v1 v3 v7 v9 (ix2 r d) = Ideal.logistic (k1_pay1 (F := Ideal) v0 v1 v3 v7 v9 (ix2 r d)) := rfl

theorem k1_pay3_apply (r : Fin 6400) (d : Fin 128) :
    k1_pay3 (F := Ideal) v0 v1 v3 v7 v9 v15 (ix2 r d)
      = Ideal.logistic (k1_pay1 (F := Ideal) v0 v1 v3 v7 v9 (ix2 r d)) * v15 (ix2 r d) := by
  unfold k1_pay3
  simp only [shapeCast_self]
  rfl

theorem k1_pay4_apply (u0 u1 : Fin 1) (d : Fin 128) :
    k1_pay4 (F := Ideal) v0 v1 v3 v7 v9 (ix3 u0 u1 d) = ∑ r : Fin 6400, k1_pay1 (F := Ideal) v0 v1 v3 v7 v9 (ix2 r d) :=
  colsum_apply _ _ _ _ u0 u1 d

theorem k1_pay5_apply (u0 u1 : Fin 1) (d : Fin 128) :
    k1_pay5 (F := Ideal) v0 v1 v3 v7 v9 (ix3 u0 u1 d)
      = ∑ r : Fin 6400, k1_pay1 (F := Ideal) v0 v1 v3 v7 v9 (ix2 r d) * k1_pay1 (F := Ideal) v0 v1 v3 v7 v9 (ix2 r d) :=
  colsum_apply _ _ _ _ u0 u1 d

end Payloads

section Arrays

variable (A0 A1 A2 A3 : FVec Ideal S800000x128 .f32) (A4 : FVec Ideal S128x128 .f32) (A5 : FVec Ideal S1x128 .f32)

def eij1 (n : Fin 800000) (d : Fin 128) : EReal :=
  (A0 (ix2 n d) + A1 (ix2 n d)) + ((∑ k : Fin 128, A3 (ix2 n k) * A4 (ix2 k d)) + A5 (ix2 (0 : Fin 1) d))

theorem eij1_def (n : Fin 800000) (d : Fin 128) :
    eij1 A0 A1 A3 A4 A5 n d
      = (A0 (ix2 n d) + A1 (ix2 n d)) + ((∑ k : Fin 128, A3 (ix2 n k) * A4 (ix2 k d)) + A5 (ix2 (0 : Fin 1) d)) := rfl

def edge1 (i : Fin 125) (r : Fin 6400) : Fin 800000 :=
  ⟨6400 * i.val + r.val, by have := i.isLt; have := r.isLt; omega⟩

def G1_6 (A0 A1 A2 A3 : FVec Ideal S800000x128 .f32) (A4 : FVec Ideal S128x128 .f32) (A5 : FVec Ideal S1x128 .f32) : FVec Ideal S800000x128 .f32 :=
  fun j => eij1 A0 A1 A3 A4 A5 ⟨(j 0).val, (j 0).isLt⟩ ⟨(j 1).val, (j 1).isLt⟩

theorem G1_6_apply (n : Fin 800000) (d : Fin 128) : G1_6 A0 A1 A2 A3 A4 A5 (ix2 n d) = eij1 A0 A1 A3 A4 A5 n d := rfl

def G1_7 : FVec Ideal S800000x256 .f32 :=
  fun j =>
    if h : (j 1).val < 128 then
      Ideal.logistic (eij1 A0 A1 A3 A4 A5 ⟨(j 0).val, (j 0).isLt⟩ ⟨(j 1).val, h⟩) * A2 (ix2 (⟨(j 0).val, (j 0).isLt⟩ : Fin 800000) (⟨(j 1).val, h⟩ : Fin 128))
    else
      Ideal.logistic (eij1 A0 A1 A3 A4 A5 ⟨(j 0).val, (j 0).isLt⟩ ⟨(j 1).val - 128, by have h256 : (j 1).val < 256 := (j 1).isLt; omega⟩)

theorem G1_7_apply_left (n : Fin 800000) (d : Fin 128) :
    G1_7 A0 A1 A2 A3 A4 A5 (ix2 n (⟨d.val, by have := d.isLt; omega⟩ : Fin 256)) = Ideal.logistic (eij1 A0 A1 A3 A4 A5 n d) * A2 (ix2 n d) :=
  dif_pos d.isLt

theorem G1_7_apply_right (n : Fin 800000) (d : Fin 128) :
    G1_7 A0 A1 A2 A3 A4 A5 (ix2 n (⟨128 + d.val, by have := d.isLt; omega⟩ : Fin 256)) = Ideal.logistic (eij1 A0 A1 A3 A4 A5 n d) :=
  (dif_neg (Nat.not_lt.mpr (Nat.le_add_right 128 d.val))).trans
    (congrArg (fun x => Ideal.logistic (eij1 A0 A1 A3 A4 A5 n x)) (Fin.ext (Nat.add_sub_cancel_left ..)))

def G1_8 (A0 A1 A2 A3 : FVec Ideal S800000x128 .f32) (A4 : FVec Ideal S128x128 .f32) (A5 : FVec Ideal S1x128 .f32) : FVec Ideal S125x1x128 .f32 :=
  fun j => ∑ r : Fin 6400, eij1 A0 A1 A3 A4 A5 (edge1 ⟨(j 0).val, (j 0).isLt⟩ r) ⟨(j 2).val, (j 2).isLt⟩

theorem G1_8_apply (i : Fin 125) (u : Fin 1) (d : Fin 128) :
    G1_8 A0 A1 A2 A3 A4 A5 (ix3 i u d) = ∑ r : Fin 6400, eij1 A0 A1 A3 A4 A5 (edge1 i r) d := rfl

def G1_9 (A0 A1 A2 A3 : FVec Ideal S800000x128 .f32) (A4 : FVec Ideal S128x128 .f32) (A5 : FVec Ideal S1x128 .f32) : FVec Ideal S125x1x128 .f32 :=
  fun j => ∑ r : Fin 6400, eij1 A0 A1 A3 A4 A5 (edge1 ⟨(j 0).val, (j 0).isLt⟩ r) ⟨(j 2).val, (j 2).isLt⟩
    * eij1 A0 A1 A3 A4 A5 (edge1 ⟨(j 0).val, (j 0).isLt⟩ r) ⟨(j 2).val, (j 2).isLt⟩

theorem G1_9_apply (i : Fin 125) (u : Fin 1) (d : Fin 128) :
    G1_9 A0 A1 A2 A3 A4 A5 (ix3 i u d)
      = ∑ r : Fin 6400, eij1 A0 A1 A3 A4 A5 (edge1 i r) d * eij1 A0 A1 A3 A4 A5 (edge1 i r) d := rfl

end Arrays

private theorem idx1_in_0 : ∀ t : Fin cfg1.N, win1_0.index t (0 : Fin 2) = t.val ∧ win1_0.index t (1 : Fin 2) = 0 :=
  (by decide +kernel : ∀ t : Fin grid1.N, _)
private theorem idx1_in_1 : ∀ t : Fin cfg1.N, win1_1.index t (0 : Fin 2) = t.val ∧ win1_1.index t (1 : Fin 2) = 0 :=
  (by decide +kernel : ∀ t : Fin grid1.N, _)
private theorem idx1_in_2 : ∀ t : Fin cfg1.N, win1_2.index t (0 : Fin 2) = t.val ∧ win1_2.index t (1 : Fin 2) = 0 :=
  (by decide +kernel : ∀ t : Fin grid1.N, _)
private theorem idx1_in_3 : ∀ t : Fin cfg1.N, win1_3.index t (0 : Fin 2) = t.val ∧ win1_3.index t (1 : Fin 2) = 0 :=
  (by decide +kernel : ∀ t : Fin grid1.N, _)
private theorem idx1_in_4 : ∀ t : Fin cfg1.N, win1_4.index t (0 : Fin 2) = 0 ∧ win1_4.index t (1 : Fin 2) = 0 :=
  (by decide +kernel : ∀ t : Fin grid1.N, _)
private theorem idx1_in_5 : ∀ t : Fin cfg1.N, win1_5.index t (0 : Fin 2) = 0 ∧ win1_5.index t (1 : Fin 2) = 0 :=
  (by decide +kernel : ∀ t : Fin grid1.N, _)
private theorem idx1_out_6 : ∀ t : Fin cfg1.N, win1_6.index t (0 : Fin 2) = t.val ∧ win1_6.index t (1 : Fin 2) = 0 :=
  (by decide +kernel : ∀ t : Fin grid1.N, _)
private theorem idx1_out_7 : ∀ t : Fin cfg1.N, win1_7.index t (0 : Fin 2) = t.val ∧ win1_7.index t (1 : Fin 2) = 0 :=
  (by decide +kernel : ∀ t : Fin grid1.N, _)
private theorem idx1_out_8 : ∀ t : Fin cfg1.N, win1_8.index t (0 : Fin 3) = t.val ∧ win1_8.index t (1 : Fin 3) = 0 ∧ win1_8.index t (2 : Fin 3) = 0 :=
  (by decide +kernel : ∀ t : Fin grid1.N, _)
private theorem idx1_out_9 : ∀ t : Fin cfg1.N, win1_9.index t (0 : Fin 3) = t.val ∧ win1_9.index t (1 : Fin 3) = 0 ∧ win1_9.index t (2 : Fin 3) = 0 :=
  (by decide +kernel : ∀ t : Fin grid1.N, _)

private theorem tlt1 (t : Fin cfg1.N) : t.val < 125 := lt_of_lt_of_eq t.isLt (N_1 : cfg1.N = 125)

section Final

variable (V : (c : Dev nD) → (b : Ref sig .tc) → Buf (Elt Ideal) ((c : Thread nD τ).loc b)) (c : Dev nD) (t : Fin cfg1.N)

private theorem blk1_0_apply (r : Fin 6400) (d : Fin 128) :
    (iblk1 V c 0 t : FVec Ideal S6400x128 .f32) (ix2 r d) = (V c main_v14 : FVec Ideal S800000x128 .f32) (ix2 (edge1 ⟨t.val, tlt1 t⟩ r) d) :=
  (View.read_apply _ _).trans (congrArg (V c main_v14) (Shape.idx_ext₂ (off_lead t.val (idx1_in_0 t).1) (off_zero (idx1_in_0 t).2)))

private theorem blk1_1_apply (r : Fin 6400) (d : Fin 128) :
    (iblk1 V c 1 t : FVec Ideal S6400x128 .f32) (ix2 r d) = (V c main_v13 : FVec Ideal S800000x128 .f32) (ix2 (edge1 ⟨t.val, tlt1 t⟩ r) d) :=
  (View.read_apply _ _).trans (congrArg (V c main_v13) (Shape.idx_ext₂ (off_lead t.val (idx1_in_1 t).1) (off_zero (idx1_in_1 t).2)))

private theorem blk1_2_apply (r : Fin 6400) (d : Fin 128) :
    (iblk1 V c 2 t : FVec Ideal S6400x128 .f32) (ix2 r d) = (V c main_v12 : FVec Ideal S800000x128 .f32) (ix2 (edge1 ⟨t.val, tlt1 t⟩ r) d) :=
  (View.read_apply _ _).trans (congrArg (V c main_v12) (Shape.idx_ext₂ (off_lead t.val (idx1_in_2 t).1) (off_zero (idx1_in_2 t).2)))

private theorem blk1_3_apply (r : Fin 6400) (d : Fin 128) :
    (iblk1 V c 3 t : FVec Ideal S6400x128 .f32) (ix2 r d) = (V c main_arg1 : FVec Ideal S800000x128 .f32) (ix2 (edge1 ⟨t.val, tlt1 t⟩ r) d) :=
  (View.read_apply _ _).trans (congrArg (V c main_arg1) (Shape.idx_ext₂ (off_lead t.val (idx1_in_3 t).1) (off_zero (idx1_in_3 t).2)))

private theorem blk1_4_eq : (iblk1 V c 4 t : FVec Ideal S128x128 .f32) = (V c main_arg6 : FVec Ideal S128x128 .f32) :=
  funext fun y => (View.read_apply _ _).trans (congrArg (V c main_arg6) (Shape.idx_ext₂ (off_zero (idx1_in_4 t).1) (off_zero (idx1_in_4 t).2)))

private theorem blk1_5_eq : (iblk1 V c 5 t : FVec Ideal S1x128 .f32) = (V c main_v15 : FVec Ideal S1x128 .f32) :=
  funext fun y => (View.read_apply _ _).trans (congrArg (V c main_v15) (Shape.idx_ext₂ (off_zero (idx1_in_5 t).1) (off_zero (idx1_in_5 t).2)))

/-- The pre-activation of a block's row is that of the array's row it was read from. -/
private theorem pay1_blk (r : Fin 6400) (d : Fin 128) :
    k1_pay1 (F := Ideal) (iblk1 V c 3 t) (iblk1 V c 4 t) (iblk1 V c 5 t) (iblk1 V c 0 t) (iblk1 V c 1 t) (ix2 r d)
      = eij1 (V c main_v14) (V c main_v13) (V c main_arg1) (V c main_arg6) (V c main_v15) (edge1 ⟨t.val, tlt1 t⟩ r) d := by
  rw [k1_pay1_apply, eij1_def, blk1_0_apply, blk1_1_apply, blk1_4_eq, blk1_5_eq]
  simp only [blk1_3_apply]

private theorem outs1 {F : FTy → Type} [FloatOps F] (x0 x1 x2 x3 : Vec F S6400x128 .f32) (x4 : Vec F S128x128 .f32) (x5 : Vec F S1x128 .f32) :
    out1_6 x0 x1 x2 x3 x4 x5 = k1_pay1 x3 x4 x5 x0 x1
    ∧ out1_7 x0 x1 x2 x3 x4 x5 = View.canon [⟨r1_4, k1_pay2 x3 x4 x5 x0 x1⟩, ⟨r1_3, k1_pay3 x3 x4 x5 x0 x1 x2⟩]
    ∧ out1_8 x0 x1 x2 x3 x4 x5 = k1_pay4 x3 x4 x5 x0 x1 ∧ out1_9 x0 x1 x2 x3 x4 x5 = k1_pay5 x3 x4 x5 x0 x1 := by
  refine ⟨?_, ?_, ?_, ?_⟩ <;>
    simp only [out1_6, out1_7, out1_8, out1_9, View.ld_unit_zero (S := S6400x128) hz2, View.ld_unit_zero (S := S128x128) hz2,
      View.ld_unit_zero (S := S1x128) hz2, View.canon_unit_zero (S := S6400x128) hz2, View.canon_unit_zero (S := S1x1x128) hz3]

private theorem flushed1_6 : (dat1 V c).flushed 6 t = ((cfg1.win 6).blk t).view.read (Elt Ideal) (G1_6 (V c main_v14) (V c main_v13) (V c main_v12) (V c main_arg1) (V c main_arg6) (V c main_v15)) := by
  show (cfg1.win 6).cut (grid1.coords t) ((dat1 V c).after 6 t) = _
  rw [after1_6, (outs1 _ _ _ _ _ _).1]
  refine funext fun (j : S6400x128.Idx) => Eq.trans ?_ (View.read_apply _ _).symm
  rw [eq_ix2 j]
  exact (pay1_blk V c t _ _).trans (congrArg (G1_6 (V c main_v14) (V c main_v13) (V c main_v12) (V c main_arg1) (V c main_arg6) (V c main_v15)) (Shape.idx_ext₂ (y := ix2 (edge1 ⟨t.val, tlt1 t⟩ (j 0)) (j 1)) (off_lead t.val (idx1_out_6 t).1) (off_zero (idx1_out_6 t).2))).symm

private theorem cover1_6_arr (i : S800000x128.Idx) : ∃ t : Fin cfg1.N, (cfg1.win 6).flush t = true ∧ i ∈ ((cfg1.win 6).blk t).view.set := by
  have h0 : (i 0).val < 800000 := (i 0).isLt
  obtain ⟨t, ht⟩ : ∃ t : Fin cfg1.N, t.val = (i 0).val / 6400 := ⟨⟨_, by rw [show cfg1.N = 125 from N_1]; omega⟩, rfl⟩
  refine ⟨t, flush1_6 t, ?_⟩
  show i ∈ ((View.whole main_v16_0).slice (win1_6.rect t)).set
  rw [View.set_slice_whole, Rect.mem_set_unit]
  exact Fin.forall_fin_two.mpr ⟨in_lead (b := 6400) (by decide) ((idx1_out_6 t).1.trans ht), in_zero (b := 128) (idx1_out_6 t).2 (i 1).isLt⟩

theorem final1_6 : (dat1 V c).arrAt 6 cfg1.N = G1_6 (V c main_v14) (V c main_v13) (V c main_v12) (V c main_arg1) (V c main_arg6) (V c main_v15) :=
  (dat1 V c).arrAt_eq_of_cover 6 _ (fun t _ => flushed1_6 V c t) cover1_6_arr

private theorem flushed1_7 : (dat1 V c).flushed 7 t = ((cfg1.win 7).blk t).view.read (Elt Ideal) (G1_7 (V c main_v14) (V c main_v13) (V c main_v12) (V c main_arg1) (V c main_arg6) (V c main_v15)) := by
  show (cfg1.win 7).cut (grid1.coords t) ((dat1 V c).after 7 t) = _
  rw [after1_7, (outs1 _ _ _ _ _ _).2.1]
  refine funext fun (j : S6400x256.Idx) => Eq.trans ?_ (View.read_apply _ _).symm
  refine View.canon_apply_of_pieces (Val := Elt Ideal) (fun j => G1_7 (V c main_v14) (V c main_v13) (V c main_v12) (V c main_arg1) (V c main_arg6) (V c main_v15) (((cfg1.win 7).blk t).view.emb j)) _ (fun p hp x => ?_) j (cover1_7 _ _ j)
  obtain ⟨h0, h1⟩ := idx1_out_7 t
  rcases List.mem_cons.mp hp with rfl | hp
  · obtain ⟨r, d, rfl⟩ : ∃ (r : Fin 6400) (d : Fin 128), x = ix2 r d := ⟨x 0, x 1, eq_ix2 x⟩
    have hd := d.isLt
    refine Eq.trans ?_ (congrArg (G1_7 (V c main_v14) (V c main_v13) (V c main_v12) (V c main_arg1) (V c main_arg6) (V c main_v15)) (Shape.idx_ext₂ (y := ix2 (edge1 ⟨t.val, tlt1 t⟩ r) ⟨128 + d.val, by omega⟩) ?_ ?_)).symm
    · refine (k1_pay2_apply _ _ _ _ _ r d).trans ?_
      rw [pay1_blk, G1_7_apply_right]
    · show win1_7.index t (0 : Fin 2) * 6400 + 1 * (0 + 1 * r.val) = 6400 * t.val + r.val; rw [h0]; omega
    · show win1_7.index t (1 : Fin 2) * 256 + 1 * (128 + 1 * d.val) = 128 + d.val; rw [h1]; omega
  · obtain rfl := List.mem_singleton.mp hp
    obtain ⟨r, d, rfl⟩ : ∃ (r : Fin 6400) (d : Fin 128), x = ix2 r d := ⟨x 0, x 1, eq_ix2 x⟩
    have hd := d.isLt
    refine Eq.trans ?_ (congrArg (G1_7 (V c main_v14) (V c main_v13) (V c main_v12) (V c main_arg1) (V c main_arg6) (V c main_v15)) (Shape.idx_ext₂ (y := ix2 (edge1 ⟨t.val, tlt1 t⟩ r) ⟨d.val, by omega⟩) ?_ ?_)).symm
    · refine (k1_pay3_apply _ _ _ _ _ _ r d).trans ?_
      rw [pay1_blk, blk1_2_apply, G1_7_apply_left]
    · show win1_7.index t (0 : Fin 2) * 6400 + 1 * (0 + 1 * r.val) = 6400 * t.val + r.val; rw [h0]; omega
    · show win1_7.index t (1 : Fin 2) * 256 + 1 * (0 + 1 * d.val) = d.val; rw [h1]; omega

private theorem cover1_7_arr (i : S800000x256.Idx) : ∃ t : Fin cfg1.N, (cfg1.win 7).flush t = true ∧ i ∈ ((cfg1.win 7).blk t).view.set := by
  have h0 : (i 0).val < 800000 := (i 0).isLt
  obtain ⟨t, ht⟩ : ∃ t : Fin cfg1.N, t.val = (i 0).val / 6400 := ⟨⟨_, by rw [show cfg1.N = 125 from N_1]; omega⟩, rfl⟩
  refine ⟨t, flush1_7 t, ?_⟩
  show i ∈ ((View.whole main_v16_1).slice (win1_7.rect t)).set
  rw [View.set_slice_whole, Rect.mem_set_unit]
  exact Fin.forall_fin_two.mpr ⟨in_lead (b := 6400) (by decide) ((idx1_out_7 t).1.trans ht), in_zero (b := 256) (idx1_out_7 t).2 (i 1).isLt⟩

theorem final1_7 : (dat1 V c).arrAt 7 cfg1.N = G1_7 (V c main_v14) (V c main_v13) (V c main_v12) (V c main_arg1) (V c main_arg6) (V c main_v15) :=
  (dat1 V c).arrAt_eq_of_cover 7 _ (fun t _ => flushed1_7 V c t) cover1_7_arr

private theorem flushed1_8 : (dat1 V c).flushed 8 t = ((cfg1.win 8).blk t).view.read (Elt Ideal) (G1_8 (V c main_v14) (V c main_v13) (V c main_v12) (V c main_arg1) (V c main_arg6) (V c main_v15)) := by
  show (cfg1.win 8).cut (grid1.coords t) ((dat1 V c).after 8 t) = _
  rw [after1_8, (outs1 _ _ _ _ _ _).2.2.1]
  refine funext fun (j : S1x1x128.Idx) => Eq.trans ?_ (View.read_apply _ _).symm
  rw [eq_ix3 j]
  refine (k1_pay4_apply _ _ _ _ _ _ _ _).trans ?_
  exact (Finset.sum_congr rfl fun r _ => pay1_blk V c t r _).trans (congrArg (G1_8 (V c main_v14) (V c main_v13) (V c main_v12) (V c main_arg1) (V c main_arg6) (V c main_v15))
    (idx_ext₃ (y := ix3 (⟨t.val, tlt1 t⟩ : Fin 125) (j 1) (j 2)) (off_unit (idx1_out_8 t).1 (j 0).isLt) (off_zero (idx1_out_8 t).2.1) (off_zero (idx1_out_8 t).2.2))).symm

private theorem cover1_8_arr (i : S125x1x128.Idx) : ∃ t : Fin cfg1.N, (cfg1.win 8).flush t = true ∧ i ∈ ((cfg1.win 8).blk t).view.set := by
  obtain ⟨t, ht⟩ : ∃ t : Fin cfg1.N, t.val = (i 0).val / 1 := ⟨⟨_, by rw [show cfg1.N = 125 from N_1, Nat.div_one]; exact (i 0).isLt⟩, rfl⟩
  refine ⟨t, flush1_8 t, ?_⟩
  show i ∈ ((View.whole main_v16_2).slice (win1_8.rect t)).set
  rw [View.set_slice_whole, Rect.mem_set_unit]
  exact fin3 (in_lead Nat.one_pos ((idx1_out_8 t).1.trans ht)) (in_zero (b := 1) (idx1_out_8 t).2.1 (i 1).isLt) (in_zero (b := 128) (idx1_out_8 t).2.2 (i 2).isLt)

theorem final1_8 : (dat1 V c).arrAt 8 cfg1.N = G1_8 (V c main_v14) (V c main_v13) (V c main_v12) (V c main_arg1) (V c main_arg6) (V c main_v15) :=
  (dat1 V c).arrAt_eq_of_cover 8 _ (fun t _ => flushed1_8 V c t) cover1_8_arr

private theorem flushed1_9 : (dat1 V c).flushed 9 t = ((cfg1.win 9).blk t).view.read (Elt Ideal) (G1_9 (V c main_v14) (V c main_v13) (V c main_v12) (V c main_arg1) (V c main_arg6) (V c main_v15)) := by
  show (cfg1.win 9).cut (grid1.coords t) ((dat1 V c).after 9 t) = _
  rw [after1_9, (outs1 _ _ _ _ _ _).2.2.2]
  refine funext fun (j : S1x1x128.Idx) => Eq.trans ?_ (View.read_apply _ _).symm
  rw [eq_ix3 j]
  refine (k1_pay5_apply _ _ _ _ _ _ _ _).trans ?_
  exact (Finset.sum_congr rfl fun r _ => congrArg₂ (· * ·) (pay1_blk V c t r _) (pay1_blk V c t r _)).trans (congrArg (G1_9 (V c main_v14) (V c main_v13) (V c main_v12) (V c main_arg1) (V c main_arg6) (V c main_v15))
    (idx_ext₃ (y := ix3 (⟨t.val, tlt1 t⟩ : Fin 125) (j 1) (j 2)) (off_unit (idx1_out_9 t).1 (j 0).isLt) (off_zero (idx1_out_9 t).2.1) (off_zero (idx1_out_9 t).2.2))).symm

private theorem cover1_9_arr (i : S125x1x128.Idx) : ∃ t : Fin cfg1.N, (cfg1.win 9).flush t = true ∧ i ∈ ((cfg1.win 9).blk t).view.set := by
  obtain ⟨t, ht⟩ : ∃ t : Fin cfg1.N, t.val = (i 0).val / 1 := ⟨⟨_, by rw [show cfg1.N = 125 from N_1, Nat.div_one]; exact (i 0).isLt⟩, rfl⟩
  refine ⟨t, flush1_9 t, ?_⟩
  show i ∈ ((View.whole main_v16_3).slice (win1_9.rect t)).set
  rw [View.set_slice_whole, Rect.mem_set_unit]
  exact fin3 (in_lead Nat.one_pos ((idx1_out_9 t).1.trans ht)) (in_zero (b := 1) (idx1_out_9 t).2.1 (i 1).isLt) (in_zero (b := 128) (idx1_out_9 t).2.2 (i 2).isLt)

theorem final1_9 : (dat1 V c).arrAt 9 cfg1.N = G1_9 (V c main_v14) (V c main_v13) (V c main_v12) (V c main_arg1) (V c main_arg6) (V c main_v15) :=
  (dat1 V c).arrAt_eq_of_cover 9 _ (fun t _ => flushed1_9 V c t) cover1_9_arr

end Final

end Cert.KernelIdeal.Val

end
-- ==== Proof.KI.Val2.lean ====
import proofs.«416831_j26182120636870_3_alg».proof.Proof.KI.Region2
import proofs.«416831_j26182120636870_3_alg».proof.Proof.KI.Val1

set_option maxRecDepth 16384

noncomputable section

namespace Cert.KernelIdeal.Val

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)
open Blk

theorem k2_pay1_apply (x0 x1 x2 : FVec Ideal S5000x128 .f32) (r : Fin 5000) (d : Fin 128) :
    k2_pay1 (F := Ideal) x1 x2 x0 (ix2 r d)
      = x0 (ix2 r d) + Ideal.div (x1 (ix2 r d)) (x2 (ix2 r d) + Ideal.ofBits .f32 0x358637BD#32) := by
  unfold k2_pay1
  simp only [shapeCast_self]
  rfl

theorem k2_pay2_apply (x0 x1 x2 : FVec Ideal S5000x128 .f32) (a b : Fin 1) (d : Fin 128) :
    k2_pay2 (F := Ideal) x1 x2 x0 (ix3 a b d) = ∑ r : Fin 5000, k2_pay1 (F := Ideal) x1 x2 x0 (ix2 r d) :=
  colsum_apply _ _ _ _ a b d

theorem k2_pay3_apply (x0 x1 x2 : FVec Ideal S5000x128 .f32) (a b : Fin 1) (d : Fin 128) :
    k2_pay3 (F := Ideal) x1 x2 x0 (ix3 a b d)
      = ∑ r : Fin 5000, k2_pay1 (F := Ideal) x1 x2 x0 (ix2 r d) * k2_pay1 (F := Ideal) x1 x2 x0 (ix2 r d) :=
  colsum_apply _ _ _ _ a b d

private theorem idx2 : ∀ t : Fin cfg2.N,
    ((win2_0.index t (0 : Fin 2) = t.val ∧ win2_0.index t (1 : Fin 2) = 0)
      ∧ (win2_1.index t (0 : Fin 2) = t.val ∧ win2_1.index t (1 : Fin 2) = 0)
      ∧ (win2_2.index t (0 : Fin 2) = t.val ∧ win2_2.index t (1 : Fin 2) = 0)
      ∧ (win2_3.index t (0 : Fin 2) = t.val ∧ win2_3.index t (1 : Fin 2) = 0))
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0) :=
  (by decide +kernel : ∀ t : Fin grid2.N, _)

private theorem tlt2 (t : Fin cfg2.N) : t.val < 10 := lt_of_lt_of_eq t.isLt (N_2 : cfg2.N = 10)

section Arrays

variable (Ax num den : FVec Ideal S50000x128 .f32)

def G2_3 : FVec Ideal S50000x128 .f32 :=
  fun i => Ax i + Ideal.div (num i) (den i + Ideal.ofBits .f32 0x358637BD#32)

theorem G2_3_apply (n : Fin 50000) (d : Fin 128) :
    G2_3 Ax num den (ix2 n d)
      = Ax (ix2 n d) + Ideal.div (num (ix2 n d)) (den (ix2 n d) + Ideal.ofBits .f32 0x358637BD#32) := rfl

def rowOf2 (b : Fin 10) (r : Fin 5000) : Fin 50000 := ⟨5000 * b.val + r.val, by omega⟩

def G2_4 : FVec Ideal S10x1x128 .f32 :=
  fun i => ∑ r : Fin 5000, G2_3 Ax num den (ix2 (rowOf2 (i 0) r) (i 2))

theorem G2_4_apply (b : Fin 10) (u : Fin 1) (d : Fin 128) :
    G2_4 Ax num den (ix3 b u d)
      = ∑ r : Fin 5000, G2_3 Ax num den (ix2 (⟨5000 * b.val + r.val, by omega⟩ : Fin 50000) d) := rfl

def G2_5 : FVec Ideal S10x1x128 .f32 :=
  fun i => ∑ r : Fin 5000,
    G2_3 Ax num den (ix2 (rowOf2 (i 0) r) (i 2))
      * G2_3 Ax num den (ix2 (rowOf2 (i 0) r) (i 2))

theorem G2_5_apply (b : Fin 10) (u : Fin 1) (d : Fin 128) :
    G2_5 Ax num den (ix3 b u d)
      = ∑ r : Fin 5000, G2_3 Ax num den (ix2 (⟨5000 * b.val + r.val, by omega⟩ : Fin 50000) d)
          * G2_3 Ax num den (ix2 (⟨5000 * b.val + r.val, by omega⟩ : Fin 50000) d) := rfl

end Arrays

section Final

variable (V : (c : Dev nD) → (b : Ref sig .tc) → Buf (Elt Ideal) ((c : Thread nD τ).loc b)) (c : Dev nD) (t : Fin cfg2.N)

private theorem iblk2_0_apply (r : Fin 5000) (d : Fin 128) :
    (iblk2 V c 0 t : FVec Ideal S5000x128 .f32) (ix2 r d) = (V c main_v4 : FVec Ideal S50000x128 .f32) (ix2 (rowOf2 ⟨t.val, tlt2 t⟩ r) d) :=
  (View.read_apply _ _).trans (congrArg (V c main_v4) (Shape.idx_ext₂ (off_lead t.val (idx2 t).1.1.1) (off_zero (idx2 t).1.1.2)))

private theorem iblk2_1_apply (r : Fin 5000) (d : Fin 128) :
    (iblk2 V c 1 t : FVec Ideal S5000x128 .f32) (ix2 r d) = (V c main_v22 : FVec Ideal S50000x128 .f32) (ix2 (rowOf2 ⟨t.val, tlt2 t⟩ r) d) :=
  (View.read_apply _ _).trans (congrArg (V c main_v22) (Shape.idx_ext₂ (off_lead t.val (idx2 t).1.2.1.1) (off_zero (idx2 t).1.2.1.2)))

private theorem iblk2_2_apply (r : Fin 5000) (d : Fin 128) :
    (iblk2 V c 2 t : FVec Ideal S5000x128 .f32) (ix2 r d) = (V c main_v23 : FVec Ideal S50000x128 .f32) (ix2 (rowOf2 ⟨t.val, tlt2 t⟩ r) d) :=
  (View.read_apply _ _).trans (congrArg (V c main_v23) (Shape.idx_ext₂ (off_lead t.val (idx2 t).1.2.2.1.1) (off_zero (idx2 t).1.2.2.1.2)))

/-- The value of a block's row is that of the array's row it was read from. -/
private theorem pay1_blk2 (r : Fin 5000) (d : Fin 128) :
    k2_pay1 (F := Ideal) (iblk2 V c 1 t) (iblk2 V c 2 t) (iblk2 V c 0 t) (ix2 r d)
      = G2_3 (V c main_v4) (V c main_v22) (V c main_v23) (ix2 (rowOf2 ⟨t.val, tlt2 t⟩ r) d) := by
  rw [k2_pay1_apply, G2_3_apply, iblk2_0_apply, iblk2_1_apply, iblk2_2_apply]

private theorem flushed2_3 : (dat2 V c).flushed 3 t = ((cfg2.win 3).blk t).view.read (Elt Ideal) (G2_3 (V c main_v4) (V c main_v22) (V c main_v23)) := by
  show (cfg2.win 3).cut (grid2.coords t) ((dat2 V c).after 3 t) = _
  rw [after2_3]
  unfold out2_3
  rw [View.canon_unit_zero hz2]
  simp only [View.ld_unit_zero (S := S5000x128) hz2]
  refine funext fun (j : S5000x128.Idx) => Eq.trans ?_ (View.read_apply _ _).symm
  rw [eq_ix2 j]
  exact (pay1_blk2 V c t _ _).trans (congrArg (G2_3 _ _ _)
    (Shape.idx_ext₂ (y := ix2 (rowOf2 ⟨t.val, tlt2 t⟩ (j 0)) (j 1)) (off_lead t.val (idx2 t).1.2.2.2.1) (off_zero (idx2 t).1.2.2.2.2))).symm

private theorem covered2_3 (i : S50000x128.Idx) : ∃ t : Fin cfg2.N, (cfg2.win 3).flush t = true ∧ i ∈ ((cfg2.win 3).blk t).view.set := by
  have h0 : (i 0).val < 50000 := (i 0).isLt
  obtain ⟨t, ht⟩ : ∃ t : Fin cfg2.N, t.val = (i 0).val / 5000 := ⟨⟨_, by rw [show cfg2.N = 10 from N_2]; omega⟩, rfl⟩
  refine ⟨t, flush2_3 t, ?_⟩
  show i ∈ ((View.whole main_v24_0).slice (win2_3.rect t)).set
  rw [View.set_slice_whole, Rect.mem_set_unit]
  exact Fin.forall_fin_two.mpr ⟨in_lead (b := 5000) (by decide) ((idx2 t).1.2.2.2.1.trans ht), in_zero (b := 128) (idx2 t).1.2.2.2.2 (i 1).isLt⟩

theorem final2_3 : (dat2 V c).arrAt 3 cfg2.N = G2_3 (V c main_v4) (V c main_v22) (V c main_v23) :=
  (dat2 V c).arrAt_eq_of_cover 3 _ (fun t _ => flushed2_3 V c t) covered2_3

private theorem flushed2_4 : (dat2 V c).flushed 4 t = ((cfg2.win 4).blk t).view.read (Elt Ideal) (G2_4 (V c main_v4) (V c main_v22) (V c main_v23)) := by
  show (cfg2.win 4).cut (grid2.coords t) ((dat2 V c).after 4 t) = _
  rw [after2_4]
  unfold out2_4
  rw [View.canon_unit_zero hz3]
  simp only [View.ld_unit_zero (S := S5000x128) hz2]
  refine funext fun (j : S1x1x128.Idx) => Eq.trans ?_ (View.read_apply _ _).symm
  rw [eq_ix3 j]
  refine (k2_pay2_apply _ _ _ _ _ _).trans ?_
  exact (Finset.sum_congr rfl fun r _ => pay1_blk2 V c t r _).trans (congrArg (G2_4 _ _ _)
    (idx_ext₃ (y := ix3 (⟨t.val, tlt2 t⟩ : Fin 10) (j 1) (j 2)) (off_unit (idx2 t).2.1.1 (j 0).isLt) (off_zero (idx2 t).2.1.2.1) (off_zero (idx2 t).2.1.2.2))).symm

private theorem covered2_4 (i : S10x1x128.Idx) : ∃ t : Fin cfg2.N, (cfg2.win 4).flush t = true ∧ i ∈ ((cfg2.win 4).blk t).view.set := by
  obtain ⟨t, ht⟩ : ∃ t : Fin cfg2.N, t.val = (i 0).val / 1 := ⟨⟨_, by rw [show cfg2.N = 10 from N_2, Nat.div_one]; exact (i 0).isLt⟩, rfl⟩
  refine ⟨t, flush2_4 t, ?_⟩
  show i ∈ ((View.whole main_v24_1).slice (win2_4.rect t)).set
  rw [View.set_slice_whole, Rect.mem_set_unit]
  exact fin3 (in_lead Nat.one_pos ((idx2 t).2.1.1.trans ht)) (in_zero (b := 1) (idx2 t).2.1.2.1 (i 1).isLt) (in_zero (b := 128) (idx2 t).2.1.2.2 (i 2).isLt)

theorem final2_4 : (dat2 V c).arrAt 4 cfg2.N = G2_4 (V c main_v4) (V c main_v22) (V c main_v23) :=
  (dat2 V c).arrAt_eq_of_cover 4 _ (fun t _ => flushed2_4 V c t) covered2_4

private theorem flushed2_5 : (dat2 V c).flushed 5 t = ((cfg2.win 5).blk t).view.read (Elt Ideal) (G2_5 (V c main_v4) (V c main_v22) (V c main_v23)) := by
  show (cfg2.win 5).cut (grid2.coords t) ((dat2 V c).after 5 t) = _
  rw [after2_5]
  unfold out2_5
  rw [View.canon_unit_zero hz3]
  simp only [View.ld_unit_zero (S := S5000x128) hz2]
  refine funext fun (j : S1x1x128.Idx) => Eq.trans ?_ (View.read_apply _ _).symm
  rw [eq_ix3 j]
  refine (k2_pay3_apply _ _ _ _ _ _).trans ?_
  exact (Finset.sum_congr rfl fun r _ => congrArg₂ (· * ·) (pay1_blk2 V c t r _) (pay1_blk2 V c t r _)).trans (congrArg (G2_5 _ _ _)
    (idx_ext₃ (y := ix3 (⟨t.val, tlt2 t⟩ : Fin 10) (j 1) (j 2)) (off_unit (idx2 t).2.2.1 (j 0).isLt) (off_zero (idx2 t).2.2.2.1) (off_zero (idx2 t).2.2.2.2))).symm

private theorem covered2_5 (i : S10x1x128.Idx) : ∃ t : Fin cfg2.N, (cfg2.win 5).flush t = true ∧ i ∈ ((cfg2.win 5).blk t).view.set := by
  obtain ⟨t, ht⟩ : ∃ t : Fin cfg2.N, t.val = (i 0).val / 1 := ⟨⟨_, by rw [show cfg2.N = 10 from N_2, Nat.div_one]; exact (i 0).isLt⟩, rfl⟩
  refine ⟨t, flush2_5 t, ?_⟩
  show i ∈ ((View.whole main_v24_2).slice (win2_5.rect t)).set
  rw [View.set_slice_whole, Rect.mem_set_unit]
  exact fin3 (in_lead Nat.one_pos ((idx2 t).2.2.1.trans ht)) (in_zero (b := 1) (idx2 t).2.2.2.1 (i 1).isLt) (in_zero (b := 128) (idx2 t).2.2.2.2 (i 2).isLt)

theorem final2_5 : (dat2 V c).arrAt 5 cfg2.N = G2_5 (V c main_v4) (V c main_v22) (V c main_v23) :=
  (dat2 V c).arrAt_eq_of_cover 5 _ (fun t _ => flushed2_5 V c t) covered2_5

end Final

end Cert.KernelIdeal.Val

end
-- ==== Proof.KI.HostB.lean ====
import proofs.«416831_j26182120636870_3_alg».proof.Proof.Gen.KernelIdeal.Launch
import proofs.«416831_j26182120636870_3_alg».proof.Proof.LibRowScatter
import Idealize.ShloMosaic.Lib.StableHlo.Run
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx Idealize.ShloMosaic.TcCoe
open scoped BigOperators

theorem hostB_reduce01_apply {R C : Nat} (h' : (⟨3, ![R, 1, C]⟩ : Shape).ReducesTo [0, 1] ⟨1, ![C]⟩)
    (x : (⟨3, ![R, 1, C]⟩ : Shape).Idx → EReal) (init : EReal) (d : Fin C) :
    Ideal.hostReduceAdd h' x init (ix1 d) = init + ∑ i : Fin R, x (ix3 i (0 : Fin 1) d) := by
  have key : ∀ y : (⟨3, ![R, 1, C]⟩ : Shape).Idx, h'.drop y = ix1 d → ix3 (y 0) (0 : Fin 1) d = y := fun y hy => by
    have h2 : y 2 = d := Fin.ext (congrArg Fin.val (congrFun hy 0))
    rw [← h2, ← Subsingleton.elim (α := Fin 1) (y 1) 0]; exact (eq_ix3 y).symm
  unfold Ideal.hostReduceAdd
  exact congrArg (fun t => init + t) (Finset.sum_bij' (fun y _ => y 0) (fun i _ => ix3 i (0 : Fin 1) d) (fun _ _ => Finset.mem_univ _)
    (fun i _ => Finset.mem_filter.2 ⟨Finset.mem_univ _, funext fun b => match b with | ⟨0, _⟩ => rfl⟩)
    (fun y hy => key y (Finset.mem_filter.1 hy).2) (fun i _ => rfl) fun y hy => congrArg x (key y (Finset.mem_filter.1 hy).2).symm)

def hostB_colSum {R : Nat} (h : (⟨3, ![R, 1, 128]⟩ : Shape).ReducesTo [0, 1] S128) (x : FVec Ideal ⟨3, ![R, 1, 128]⟩ .f32) :
    FVec Ideal S128 .f32 :=
  Host.reduceAdd x (constant (F := Ideal) S_ .f32 0x00000000#32) h h_S_

theorem hostB_colSum_apply {R : Nat} (h : (⟨3, ![R, 1, 128]⟩ : Shape).ReducesTo [0, 1] S128) (x : FVec Ideal ⟨3, ![R, 1, 128]⟩ .f32)
    (d : Fin 128) : hostB_colSum h x (ix1 d) = 0 + ∑ i : Fin R, x (ix3 i (0 : Fin 1) d) := by
  unfold hostB_colSum
  rw [hostReduceAdd_apply, constant_apply, Ideal.ofBits_zero_f32]
  exact hostB_reduce01_apply h x 0 d

def hostB_scat (idx : IVec S800000 32) (u : FVec Ideal S800000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 idx) u

theorem hostB_idxCol_apply (idx : IVec S800000 32) (j : Fin 800000) :
    broadcastInDim S800000x1 ![0] bcast_S800000_S800000x1_0 idx (ix2 j (0 : Fin 1)) = idx (ix1 j) :=
  broadcastInDim_apply _ _ idx _ (ix1 j) (fun a => by
    match a with
    | ⟨0, _⟩ =>
      show j.val = if (800000 : Nat) = 1 then 0 else j.val
      rw [if_neg (by decide)])

theorem hostB_scat_apply (idx : IVec S800000 32) (u : FVec Ideal S800000x256 .f32) (n : Fin 50000) (c : Fin 256) :
    hostB_scat idx u (ix2 n c)
      = 0 + ∑ j ∈ Finset.univ.filter (fun j : Fin 800000 => (idx (ix1 j)).toInt = (n.val : ℤ)), u (ix2 j c) := by
  unfold hostB_scat
  rw [Cert.LibRowScatter.scatterAdd_rows_apply scatter_S50000x256_S800000x1_S800000x256_1_0_0_1 rfl rfl rfl rfl,
    broadcastInDim_scalar_apply, constant_apply, Ideal.ofBits_zero_f32]
  rw [Finset.filter_congr (fun j _ => by rw [hostB_idxCol_apply])]

abbrev hostB_colL (d : Fin 128) : Fin 256 := ⟨d.val, by omega⟩

abbrev hostB_colR (d : Fin 128) : Fin 256 := ⟨128 + d.val, by omega⟩

def hostB_meanRow (c : BitVec 32) (s : FVec Ideal S128 .f32) : FVec Ideal S1x128 .f32 :=
  shapeCast S1x128
    (Host.divf s (broadcastInDim S128 ![] bcast_S_S128 (constant (F := Ideal) S_ .f32 c))) shapeCasts_S128_S1x128

theorem hostB_meanRow_apply (c : BitVec 32) (s : FVec Ideal S128 .f32) (u : Fin 1) (d : Fin 128) :
    hostB_meanRow c s (ix2 u d) = Ideal.div (s (ix1 d)) (Ideal.ofBits .f32 c) := by
  unfold hostB_meanRow
  rw [shapeCast_a_1a_apply, hostDivf_apply, broadcastInDim_scalar_apply, constant_apply]

def hostB_varRow (c : BitVec 32) (s q : FVec Ideal S128 .f32) : FVec Ideal S1x128 .f32 :=
  subf (hostB_meanRow c q) (mulf (hostB_meanRow c s) (hostB_meanRow c s))

theorem hostB_varRow_apply (c : BitVec 32) (s q : FVec Ideal S128 .f32) (u : Fin 1) (d : Fin 128) :
    hostB_varRow c s q (ix2 u d)
      = Ideal.div (q (ix1 d)) (Ideal.ofBits .f32 c)
        - Ideal.div (s (ix1 d)) (Ideal.ofBits .f32 c) * Ideal.div (s (ix1 d)) (Ideal.ofBits .f32 c) := by
  unfold hostB_varRow
  rw [subf_apply, mulf_apply, hostB_meanRow_apply, hostB_meanRow_apply]

variable (W : Valuation τ sig (Elt Ideal))

theorem hostB_after2_v17_apply (x : FVec Ideal S125x1x128 .f32) (hx : W (Proc.devRef .tc main_v16_2) = x) (d : Fin 128) :
    (StableHlo.after (hostOps2 (F := Ideal)) W (Proc.devRef .tc main_v17) : FVec Ideal S128 .f32) (ix1 d)
      = 0 + ∑ i : Fin 125, x (ix3 i (0 : Fin 1) d) := by
  subst hx
  after_results
  exact hostB_colSum_apply reducesTo_S125x1x128_S128_d0_1 _ d

theorem hostB_after2_v18_apply (x : FVec Ideal S125x1x128 .f32) (hx : W (Proc.devRef .tc main_v16_3) = x) (d : Fin 128) :
    (StableHlo.after (hostOps2 (F := Ideal)) W (Proc.devRef .tc main_v18) : FVec Ideal S128 .f32) (ix1 d)
      = 0 + ∑ i : Fin 125, x (ix3 i (0 : Fin 1) d) := by
  subst hx
  after_results
  exact hostB_colSum_apply reducesTo_S125x1x128_S128_d0_1 _ d

theorem hostB_after2_v22_apply (idx : IVec S800000 32) (hidx : W (Proc.devRef .tc main_v10) = idx)
    (u : FVec Ideal S800000x256 .f32) (hu : W (Proc.devRef .tc main_v16_1) = u) (n : Fin 50000) (d : Fin 128) :
    (StableHlo.after (hostOps2 (F := Ideal)) W (Proc.devRef .tc main_v22) : FVec Ideal S50000x128 .f32) (ix2 n d)
      = 0 + ∑ j ∈ Finset.univ.filter (fun j : Fin 800000 => (idx (ix1 j)).toInt = (n.val : ℤ)), u (ix2 j (hostB_colL d)) := by
  subst hidx; subst hu
  after_results
  exact (slice2_axis1_apply 0 (hostB_scat _ _) slices_S50000x256_S50000x128_0_0 n d (hostB_colL d) (by show d.val = 0 + d.val; omega)).trans
    (hostB_scat_apply _ _ n _)

theorem hostB_after2_v23_apply (idx : IVec S800000 32) (hidx : W (Proc.devRef .tc main_v10) = idx)
    (u : FVec Ideal S800000x256 .f32) (hu : W (Proc.devRef .tc main_v16_1) = u) (n : Fin 50000) (d : Fin 128) :
    (StableHlo.after (hostOps2 (F := Ideal)) W (Proc.devRef .tc main_v23) : FVec Ideal S50000x128 .f32) (ix2 n d)
      = 0 + ∑ j ∈ Finset.univ.filter (fun j : Fin 800000 => (idx (ix1 j)).toInt = (n.val : ℤ)), u (ix2 j (hostB_colR d)) := by
  subst hidx; subst hu
  after_results
  exact (slice2_axis1_apply 128 (hostB_scat _ _) slices_S50000x256_S50000x128_0_128 n d (hostB_colR d) rfl).trans (hostB_scat_apply _ _ n _)

theorem hostB_after3_v29_apply (s : FVec Ideal S10x1x128 .f32) (hs : W (Proc.devRef .tc main_v24_1) = s) (u : Fin 1) (d : Fin 128) :
    (StableHlo.after (hostOps3 (F := Ideal)) W (Proc.devRef .tc main_v29) : FVec Ideal S1x128 .f32) (ix2 u d)
      = Ideal.div (0 + ∑ i : Fin 10, s (ix3 i (0 : Fin 1) d)) (Ideal.ofBits .f32 0x47435000#32) := by
  subst hs
  after_results
  exact (hostB_meanRow_apply _ (hostB_colSum reducesTo_S10x1x128_S128_d0_1 _) u d).trans (by rw [hostB_colSum_apply])

theorem hostB_after3_v34_apply (s : FVec Ideal S10x1x128 .f32) (hs : W (Proc.devRef .tc main_v24_1) = s)
    (q : FVec Ideal S10x1x128 .f32) (hq : W (Proc.devRef .tc main_v24_2) = q) (u : Fin 1) (d : Fin 128) :
    (StableHlo.after (hostOps3 (F := Ideal)) W (Proc.devRef .tc main_v34) : FVec Ideal S1x128 .f32) (ix2 u d)
      = Ideal.div (0 + ∑ i : Fin 10, q (ix3 i (0 : Fin 1) d)) (Ideal.ofBits .f32 0x47435000#32)
        - Ideal.div (0 + ∑ i : Fin 10, s (ix3 i (0 : Fin 1) d)) (Ideal.ofBits .f32 0x47435000#32)
          * Ideal.div (0 + ∑ i : Fin 10, s (ix3 i (0 : Fin 1) d)) (Ideal.ofBits .f32 0x47435000#32) := by
  subst hs; subst hq
  after_results_simp
  exact (hostB_varRow_apply _ (hostB_colSum reducesTo_S10x1x128_S128_d0_1 _) (hostB_colSum reducesTo_S10x1x128_S128_d0_1 _) u d).trans
    (by rw [hostB_colSum_apply, hostB_colSum_apply])

theorem hostB_after3_v35_apply (g : FVec Ideal S128 .f32) (hg : W (Proc.devRef .tc main_arg12) = g) (u : Fin 1) (d : Fin 128) :
    (StableHlo.after (hostOps3 (F := Ideal)) W (Proc.devRef .tc main_v35) : FVec Ideal S1x128 .f32) (ix2 u d) = g (ix1 d) := by
  subst hg
  after_results
  exact shapeCast_a_1a_apply _ shapeCasts_S128_S1x128 u d

theorem hostB_after3_v36_apply (b : FVec Ideal S128 .f32) (hb : W (Proc.devRef .tc main_arg13) = b) (u : Fin 1) (d : Fin 128) :
    (StableHlo.after (hostOps3 (F := Ideal)) W (Proc.devRef .tc main_v36) : FVec Ideal S1x128 .f32) (ix2 u d) = b (ix1 d) := by
  subst hb
  after_results
  exact shapeCast_a_1a_apply _ shapeCasts_S128_S1x128 u d

theorem hostB_after4_v40_apply (s : FVec Ideal S128 .f32) (hs : W (Proc.devRef .tc main_v17) = s) (u : Fin 1) (d : Fin 128) :
    (StableHlo.after (hostOps4 (F := Ideal)) W (Proc.devRef .tc main_v40) : FVec Ideal S1x128 .f32) (ix2 u d)
      = Ideal.div (s (ix1 d)) (Ideal.ofBits .f32 0x49435000#32) := by
  subst hs
  after_results
  exact hostB_meanRow_apply _ _ u d

theorem hostB_after4_v45_apply (s : FVec Ideal S128 .f32) (hs : W (Proc.devRef .tc main_v17) = s)
    (q : FVec Ideal S128 .f32) (hq : W (Proc.devRef .tc main_v18) = q) (u : Fin 1) (d : Fin 128) :
    (StableHlo.after (hostOps4 (F := Ideal)) W (Proc.devRef .tc main_v45) : FVec Ideal S1x128 .f32) (ix2 u d)
      = Ideal.div (q (ix1 d)) (Ideal.ofBits .f32 0x49435000#32)
        - Ideal.div (s (ix1 d)) (Ideal.ofBits .f32 0x49435000#32) * Ideal.div (s (ix1 d)) (Ideal.ofBits .f32 0x49435000#32) := by
  subst hs; subst hq
  after_results
  exact hostB_varRow_apply _ _ _ u d

theorem hostB_after4_v46_apply (g : FVec Ideal S128 .f32) (hg : W (Proc.devRef .tc main_arg14) = g) (u : Fin 1) (d : Fin 128) :
    (StableHlo.after (hostOps4 (F := Ideal)) W (Proc.devRef .tc main_v46) : FVec Ideal S1x128 .f32) (ix2 u d) = g (ix1 d) := by
  subst hg
  after_results
  exact shapeCast_a_1a_apply _ shapeCasts_S128_S1x128 u d

theorem hostB_after4_v47_apply (b : FVec Ideal S128 .f32) (hb : W (Proc.devRef .tc main_arg15) = b) (u : Fin 1) (d : Fin 128) :
    (StableHlo.after (hostOps4 (F := Ideal)) W (Proc.devRef .tc main_v47) : FVec Ideal S1x128 .f32) (ix2 u d) = b (ix1 d) := by
  subst hb
  after_results
  exact shapeCast_a_1a_apply _ shapeCasts_S128_S1x128 u d

end Cert.KernelIdeal.Val

end
-- ==== Proof.KI.Keep.lean ====
import proofs.«416831_j26182120636870_3_alg».proof.Proof.KI.Run

set_option maxRecDepth 16384

noncomputable section

namespace Cert.KernelIdeal.Run

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

theorem keep_8_3_v10 (c : Dev nD) : W8 m ρ c (Proc.devRef .tc main_v10) = W3 m ρ c (Proc.devRef .tc main_v10) :=
  (W8_keep m ρ c main_v10 (by decide)).trans <| (W7_keep m ρ c main_v10 (by decide)).trans <| (W6_keep m ρ c main_v10 (by decide)).trans <|
  (W5_keep m ρ c main_v10 (by decide)).trans (W4_keep m ρ c main_v10 (by decide))
theorem keep_9_3_v4 (c : Dev nD) : W9 m ρ c (Proc.devRef .tc main_v4) = W3 m ρ c (Proc.devRef .tc main_v4) :=
  (W9_keep m ρ c main_v4 (by decide)).trans <| (W8_keep m ρ c main_v4 (by decide)).trans <| (W7_keep m ρ c main_v4 (by decide)).trans <|
  (W6_keep m ρ c main_v4 (by decide)).trans <| (W5_keep m ρ c main_v4 (by decide)).trans (W4_keep m ρ c main_v4 (by decide))

end Cert.KernelIdeal.Run

end
-- ==== Proof.KI.Comp2.lean ====
import proofs.«416831_j26182120636870_3_alg».proof.Proof.KI.Comp1
import proofs.«416831_j26182120636870_3_alg».proof.Proof.KI.Val1
import proofs.«416831_j26182120636870_3_alg».proof.Proof.KI.Val2
import proofs.«416831_j26182120636870_3_alg».proof.Proof.KI.HostB
import proofs.«416831_j26182120636870_3_alg».proof.Proof.KI.Algebra
import proofs.«416831_j26182120636870_3_alg».proof.Proof.KI.Keep
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.ValueIdx
open Cert.KernelIdeal.Run (W0 W1 W2 W3 W4 W5 W6 W7 W8 W9 W10 W11 W12 W13 W14)
open scoped BigOperators

variable (m : (ℓ : Loc nD τ sig) → Buf (Elt Ideal) ℓ) (ρ : Dev nD → PrngReg) (c : Dev nD)

theorem comp2_sum_congr {n : Nat} (f g : Fin n → EReal) (h : ∀ r, f r = g r) : ∑ r, f r = ∑ r, g r :=
  Finset.sum_congr rfl fun r _ => h r

theorem comp2_scatter_eq (s t : Finset (Fin 800000)) (hst : s = t) (f g : Fin 800000 → EReal) (h : ∀ j, f j = g j) :
    (0 : EReal) + ∑ j ∈ s, f j = Cert.Spec.zero32 + ∑ j ∈ t, g j := by
  subst hst
  rw [Cert.Spec.zero32_eq, Finset.sum_congr rfl fun j _ => h j]

theorem comp2_msg (hr : InRange m c) (j : Fin 800000) (d : Fin 128) :
    eij1 (Run.V7 m ρ c main_v14) (Run.V7 m ρ c main_v13) (Run.V7 m ρ c main_arg1) (Run.V7 m ρ c main_arg6)
        (Run.V7 m ρ c main_v15) j d = qEij m c j d := by
  have e14 : (Run.V7 m ρ c main_v14 : FVec Ideal S800000x128 .f32) (ix2 j d) = _ := comp1_v14 m ρ c hr j d
  have e13 : (Run.V7 m ρ c main_v13 : FVec Ideal S800000x128 .f32) (ix2 j d) = _ := comp1_v13 m ρ c hr j d
  have e1 : (Run.V7 m ρ c main_arg1 : FVec Ideal S800000x128 .f32) = aE m c := comp1_arg1 m ρ c
  have e6 : (Run.V7 m ρ c main_arg6 : FVec Ideal S128x128 .f32) = aWC m c := comp1_arg6 m ρ c
  have e15 : (Run.V7 m ρ c main_v15 : FVec Ideal S1x128 .f32) (ix2 (0 : Fin 1) d) = abC m c (ix1 d) :=
    comp1_v15 m ρ c 0 d
  rw [eij1_def, e14, e13, e1, e6, e15]
  rfl

theorem comp2_eij (hr : InRange m c) (j : Fin 800000) (d : Fin 128) :
    (W8 m ρ c (Proc.devRef .tc main_v16_0) : FVec Ideal S800000x128 .f32) (ix2 j d) = qEij m c j d := by
  refine (congrFun ((Run.W8_arr m ρ c 6).trans (final1_6 (Run.V7 m ρ) c)) (ix2 j d)).trans ?_
  rw [G1_6_apply]
  exact comp2_msg m ρ c hr j d

theorem comp2_p1e (hr : InRange m c) (i : Fin 125) (d : Fin 128) :
    (W8 m ρ c (Proc.devRef .tc main_v16_2) : FVec Ideal S125x1x128 .f32) (ix3 i (0 : Fin 1) d)
      = ∑ r : Fin 6400, qEij m c (edgeRow i r) d := by
  refine (congrFun ((Run.W8_arr m ρ c 8).trans (final1_8 (Run.V7 m ρ) c)) (ix3 i (0 : Fin 1) d)).trans ?_
  rw [G1_8_apply]
  exact comp2_sum_congr _ _ fun r => comp2_msg m ρ c hr (edgeRow i r) d

theorem comp2_p2e (hr : InRange m c) (i : Fin 125) (d : Fin 128) :
    (W8 m ρ c (Proc.devRef .tc main_v16_3) : FVec Ideal S125x1x128 .f32) (ix3 i (0 : Fin 1) d)
      = ∑ r : Fin 6400, qEij m c (edgeRow i r) d * qEij m c (edgeRow i r) d := by
  refine (congrFun ((Run.W8_arr m ρ c 9).trans (final1_9 (Run.V7 m ρ) c)) (ix3 i (0 : Fin 1) d)).trans ?_
  rw [G1_9_apply]
  exact comp2_sum_congr _ _ fun r =>
    congrArg₂ (· * ·) (comp2_msg m ρ c hr (edgeRow i r) d) (comp2_msg m ρ c hr (edgeRow i r) d)

theorem comp2_into (n : Fin 50000) :
    Finset.univ.filter (fun j : Fin 800000 =>
        ((W8 m ρ c (Proc.devRef .tc main_v10) : IVec S800000 32) (ix1 j)).toInt = (n.val : ℤ))
      = Cert.Spec.into (aDst m c) n := by
  unfold Cert.Spec.into
  refine Finset.filter_congr fun j _ => ?_
  rw [Run.keep_8_3_v10 m ρ c, comp1_v10 m ρ c j]

theorem comp2_num (hr : InRange m c) (n : Fin 50000) (d : Fin 128) :
    (W9 m ρ c (Proc.devRef .tc main_v22) : FVec Ideal S50000x128 .f32) (ix2 n d) = qNum m c n d := by
  refine (hostB_after2_v22_apply (W8 m ρ c) _ rfl _ ((Run.W8_arr m ρ c 7).trans (final1_7 (Run.V7 m ρ) c)) n d).trans ?_
  exact comp2_scatter_eq _ _ (comp2_into m ρ c n) _ _ fun j => (G1_7_apply_left _ _ _ _ _ _ j d).trans (by
    rw [comp2_msg m ρ c hr j d, show (Run.V7 m ρ c main_v12 : FVec Ideal S800000x128 .f32) (ix2 j d) = _ from comp1_v12 m ρ c hr j d]; rfl)
theorem comp2_den (hr : InRange m c) (n : Fin 50000) (d : Fin 128) :
    (W9 m ρ c (Proc.devRef .tc main_v23) : FVec Ideal S50000x128 .f32) (ix2 n d) = qDen m c n d := by
  refine (hostB_after2_v23_apply (W8 m ρ c) _ rfl _ ((Run.W8_arr m ρ c 7).trans (final1_7 (Run.V7 m ρ) c)) n d).trans ?_
  exact comp2_scatter_eq _ _ (comp2_into m ρ c n) _ _ fun j => (G1_7_apply_right _ _ _ _ _ _ j d).trans (by rw [comp2_msg m ρ c hr j d]; rfl)

theorem comp2_node (hr : InRange m c) (n : Fin 50000) (d : Fin 128) :
    G2_3 (Run.V9 m ρ c main_v4) (Run.V9 m ρ c main_v22) (Run.V9 m ρ c main_v23) (ix2 n d) = qXpre m c n d := by
  have e4 : (Run.V9 m ρ c main_v4 : FVec Ideal S50000x128 .f32) (ix2 n d) = _ :=
    (congrFun (Run.keep_9_3_v4 m ρ c) (ix2 n d)).trans (comp1_v4 m ρ c n d)
  have e22 : (Run.V9 m ρ c main_v22 : FVec Ideal S50000x128 .f32) (ix2 n d) = qNum m c n d := comp2_num m ρ c hr n d
  have e23 : (Run.V9 m ρ c main_v23 : FVec Ideal S50000x128 .f32) (ix2 n d) = qDen m c n d := comp2_den m ρ c hr n d
  rw [G2_3_apply, e4, e22, e23]
  rfl

theorem comp2_xpre (hr : InRange m c) (n : Fin 50000) (d : Fin 128) :
    (W10 m ρ c (Proc.devRef .tc main_v24_0) : FVec Ideal S50000x128 .f32) (ix2 n d) = qXpre m c n d := by
  refine (congrFun ((Run.W10_arr m ρ c 3).trans (final2_3 (Run.V9 m ρ) c)) (ix2 n d)).trans ?_
  exact comp2_node m ρ c hr n d

theorem comp2_p1x (hr : InRange m c) (i : Fin 10) (d : Fin 128) :
    (W10 m ρ c (Proc.devRef .tc main_v24_1) : FVec Ideal S10x1x128 .f32) (ix3 i (0 : Fin 1) d)
      = ∑ r : Fin 5000, qXpre m c (nodeRow i r) d := by
  refine (congrFun ((Run.W10_arr m ρ c 4).trans (final2_4 (Run.V9 m ρ) c)) (ix3 i (0 : Fin 1) d)).trans ?_
  rw [G2_4_apply]
  exact comp2_sum_congr _ _ fun r => comp2_node m ρ c hr (nodeRow i r) d

theorem comp2_p2x (hr : InRange m c) (i : Fin 10) (d : Fin 128) :
    (W10 m ρ c (Proc.devRef .tc main_v24_2) : FVec Ideal S10x1x128 .f32) (ix3 i (0 : Fin 1) d)
      = ∑ r : Fin 5000, qXpre m c (nodeRow i r) d * qXpre m c (nodeRow i r) d := by
  refine (congrFun ((Run.W10_arr m ρ c 5).trans (final2_5 (Run.V9 m ρ) c)) (ix3 i (0 : Fin 1) d)).trans ?_
  rw [G2_5_apply]
  exact comp2_sum_congr _ _ fun r =>
    congrArg₂ (· * ·) (comp2_node m ρ c hr (nodeRow i r) d) (comp2_node m ρ c hr (nodeRow i r) d)

end Cert.KernelIdeal.Val

end
-- ==== Proof.KI.Val3.lean ====
import proofs.«416831_j26182120636870_3_alg».proof.Proof.KI.Region3
import proofs.«416831_j26182120636870_3_alg».proof.Proof.KI.ValBn

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def G3_5 (a : FVec Ideal S50000x128 .f32) (mean var gamma beta : FVec Ideal S1x128 .f32) : FVec Ideal S50000x128 .f32 :=
  Gbn a mean var gamma beta

theorem G3_5_apply (a : FVec Ideal S50000x128 .f32) (mean var gamma beta : FVec Ideal S1x128 .f32) (n : Fin 50000) (d : Fin 128) :
    G3_5 a mean var gamma beta (ix2 n d) =
      max ((((a (ix2 n d) - mean (ix2 0 d)) * Ideal.rsqrt (max (var (ix2 0 d)) (Ideal.ofBits .f32 0#32) + Ideal.ofBits .f32 0x3727C5AC#32))
        * gamma (ix2 0 d)) + beta (ix2 0 d)) (Ideal.ofBits .f32 0#32) := rfl

private theorem idx3 : ∀ (t : Fin cfg3.N) (a : Fin 2),
    win3_5.index t a * win3_5.size a = ![t.val * 5000, 0] a ∧ win3_5.index t 1 = 0 ∧ win3_0.index t a = win3_5.index t a
    ∧ win3_1.index t a = 0 ∧ win3_2.index t a = 0 ∧ win3_3.index t a = 0 ∧ win3_4.index t a = 0 :=
  (by decide +kernel : ∀ t : Fin grid3.N, _)

theorem flushed3_5_eq (c : Dev nD) (t : Fin cfg3.N) :
    (dat3 V c).flushed 5 t = ((cfg3.win 5).blk t).view.read (Elt Ideal)
      (G3_5 (V c main_v24_0) (V c main_v29) (V c main_v34) (V c main_v35) (V c main_v36)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  exact Gbn_blk _ _ _ _ _ (fun y => ((cfg3.win 5).blk t).view.emb y)
    (fun y => win3_5.rect_emb_val_of_index_zero t 1 (idx3 t 1).2.1 y) _ _ _ _ _
    (fun y => congrArg (V c main_v24_0) (funext fun a => Fin.ext (emb_val_congr win3_0 win3_5 t y y a a (idx3 t a).2.2.1 rfl rfl)))
    (fun y => congrArg (V c main_v29) (emb_self win3_1 t (fun a => (idx3 t a).2.2.2.1) y y fun _ => rfl))
    (fun y => congrArg (V c main_v34) (emb_self win3_2 t (fun a => (idx3 t a).2.2.2.2.1) y y fun _ => rfl))
    (fun y => congrArg (V c main_v35) (emb_self win3_3 t (fun a => (idx3 t a).2.2.2.2.2.1) y y fun _ => rfl))
    (fun y => congrArg (V c main_v36) (emb_self win3_4 t (fun a => (idx3 t a).2.2.2.2.2.2) y y fun _ => rfl))
    (k3_pay1 (iblk3 V c 0 t) (iblk3 V c 2 t) (iblk3 V c 1 t) (iblk3 V c 3 t) (iblk3 V c 4 t)) fun p q => by
      unfold k3_pay1
      simp only [shapeCast_self, maximumf_apply, addf_apply, mulf_apply, subf_apply, broadcastTo_1b_ab_apply, broadcast_apply]
      rfl

theorem covered3_5 (i : S50000x128.Idx) :
    ∃ t : Fin cfg3.N, (cfg3.win 5).flush t = true ∧ i ∈ ((cfg3.win 5).blk t).view.set := by
  have hlt : (i 0).val / 5000 < cfg3.N := lt_of_lt_of_eq (Nat.div_lt_of_lt_mul (i 0).isLt) N_3.symm
  refine ⟨⟨_, hlt⟩, flush3_5 _, (?_ : i ∈ ((View.whole main_v37).slice (win3_5.rect ⟨_, hlt⟩)).set)⟩
  rw [View.set_slice_whole]
  exact mem_rowBlock (by decide) i (fun a => (idx3 ⟨_, hlt⟩ a).1) fun _ => rfl

theorem final3_5 (c : Dev nD) : (dat3 V c).arrAt 5 cfg3.N =
    G3_5 (V c main_v24_0) (V c main_v29) (V c main_v34) (V c main_v35) (V c main_v36) :=
  (dat3 V c).arrAt_eq_of_cover 5 _ (fun t _ => flushed3_5_eq V c t) covered3_5

end Cert.KernelIdeal.Val

end
-- ==== Proof.KI.Val4.lean ====
import proofs.«416831_j26182120636870_3_alg».proof.Proof.KI.Region4
import proofs.«416831_j26182120636870_3_alg».proof.Proof.KI.ValBn

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def G4_5 (a : FVec Ideal S800000x128 .f32) (mean var gamma beta : FVec Ideal S1x128 .f32) : FVec Ideal S800000x128 .f32 :=
  Gbn a mean var gamma beta

theorem G4_5_apply (a : FVec Ideal S800000x128 .f32) (mean var gamma beta : FVec Ideal S1x128 .f32) (n : Fin 800000) (d : Fin 128) :
    G4_5 a mean var gamma beta (ix2 n d) =
      max ((((a (ix2 n d) - mean (ix2 0 d)) * Ideal.rsqrt (max (var (ix2 0 d)) (Ideal.ofBits .f32 0#32) + Ideal.ofBits .f32 0x3727C5AC#32))
        * gamma (ix2 0 d)) + beta (ix2 0 d)) (Ideal.ofBits .f32 0#32) := rfl

private theorem idx4 : ∀ (t : Fin cfg4.N) (a : Fin 2),
    win4_5.index t a * win4_5.size a = ![t.val * 8000, 0] a ∧ win4_5.index t 1 = 0 ∧ win4_0.index t a = win4_5.index t a
    ∧ win4_1.index t a = 0 ∧ win4_2.index t a = 0 ∧ win4_3.index t a = 0 ∧ win4_4.index t a = 0 :=
  (by decide +kernel : ∀ t : Fin grid4.N, _)

theorem flushed4_5_eq (c : Dev nD) (t : Fin cfg4.N) :
    (dat4 V c).flushed 5 t = ((cfg4.win 5).blk t).view.read (Elt Ideal)
      (G4_5 (V c main_v16_0) (V c main_v40) (V c main_v45) (V c main_v46) (V c main_v47)) := by
  show (cfg4.win 5).cut (grid4.coords t) ((dat4 V c).after 5 t) = _
  rw [after4_5]
  unfold out4_5
  rw [View.canon_unit_zero hz]
  simp only [View.ld_unit_zero (S := S8000x128) hz, View.ld_unit_zero (S := S1x128) hz]
  exact Gbn_blk _ _ _ _ _ (fun y => ((cfg4.win 5).blk t).view.emb y)
    (fun y => win4_5.rect_emb_val_of_index_zero t 1 (idx4 t 1).2.1 y) _ _ _ _ _
    (fun y => congrArg (V c main_v16_0) (funext fun a => Fin.ext (emb_val_congr win4_0 win4_5 t y y a a (idx4 t a).2.2.1 rfl rfl)))
    (fun y => congrArg (V c main_v40) (emb_self win4_1 t (fun a => (idx4 t a).2.2.2.1) y y fun _ => rfl))
    (fun y => congrArg (V c main_v45) (emb_self win4_2 t (fun a => (idx4 t a).2.2.2.2.1) y y fun _ => rfl))
    (fun y => congrArg (V c main_v46) (emb_self win4_3 t (fun a => (idx4 t a).2.2.2.2.2.1) y y fun _ => rfl))
    (fun y => congrArg (V c main_v47) (emb_self win4_4 t (fun a => (idx4 t a).2.2.2.2.2.2) y y fun _ => rfl))
    (k4_pay1 (iblk4 V c 0 t) (iblk4 V c 2 t) (iblk4 V c 1 t) (iblk4 V c 3 t) (iblk4 V c 4 t)) fun p q => by
      unfold k4_pay1
      simp only [shapeCast_self, maximumf_apply, addf_apply, mulf_apply, subf_apply, broadcastTo_1b_ab_apply, broadcast_apply]
      rfl

theorem covered4_5 (i : S800000x128.Idx) :
    ∃ t : Fin cfg4.N, (cfg4.win 5).flush t = true ∧ i ∈ ((cfg4.win 5).blk t).view.set := by
  have hlt : (i 0).val / 8000 < cfg4.N := lt_of_lt_of_eq (Nat.div_lt_of_lt_mul (i 0).isLt) N_4.symm
  refine ⟨⟨_, hlt⟩, flush4_5 _, (?_ : i ∈ ((View.whole main_v48).slice (win4_5.rect ⟨_, hlt⟩)).set)⟩
  rw [View.set_slice_whole]
  exact mem_rowBlock (by decide) i (fun a => (idx4 ⟨_, hlt⟩ a).1) fun _ => rfl

theorem final4_5 (c : Dev nD) : (dat4 V c).arrAt 5 cfg4.N =
    G4_5 (V c main_v16_0) (V c main_v40) (V c main_v45) (V c main_v46) (V c main_v47) :=
  (dat4 V c).arrAt_eq_of_cover 5 _ (fun t _ => flushed4_5_eq V c t) covered4_5

end Cert.KernelIdeal.Val

end
-- ==== Proof.KI.Comp3a.lean ====
import proofs.«416831_j26182120636870_3_alg».proof.Proof.KI.Comp2
import proofs.«416831_j26182120636870_3_alg».proof.Proof.KI.Val3
import proofs.«416831_j26182120636870_3_alg».proof.Proof.KI.Val4
import proofs.«416831_j26182120636870_3_alg».proof.Proof.KI.HostB
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Cert.KernelIdeal.Run (W0 W1 W2 W3 W4 W5 W6 W7 W8 W9 W10 W11 W12 W13 W14)
open scoped BigOperators

variable (m : (ℓ : Loc nD τ sig) → Buf (Elt Ideal) ℓ) (ρ : Dev nD → PrngReg) (c : Dev nD)

theorem comp3a_sums {R : Nat} (x : FVec Ideal (⟨3, ![R, 1, 128]⟩ : Shape) .f32) (f : Fin R → EReal) (d : Fin 128)
    (h : ∀ i : Fin R, x (ix3 i (0 : Fin 1) d) = f i) :
    (0 : EReal) + ∑ i : Fin R, x (ix3 i (0 : Fin 1) d) = 0 + ∑ i : Fin R, f i := by
  rw [Finset.sum_congr rfl fun i _ => h i]

theorem comp3a_node_arr :
    (W14 m ρ c (Proc.devRef .tc main_v37) : FVec Ideal S50000x128 .f32)
      = G3_5 (W11 m ρ c (Proc.devRef .tc main_v24_0)) (W11 m ρ c (Proc.devRef .tc main_v29))
          (W11 m ρ c (Proc.devRef .tc main_v34)) (W11 m ρ c (Proc.devRef .tc main_v35))
          (W11 m ρ c (Proc.devRef .tc main_v36)) :=
  (Run.W14_keep m ρ c main_v37 (by decide)).trans <| (Run.W13_keep m ρ c main_v37 (by decide)).trans <|
    (Run.W12_arr m ρ c 5).trans (final3_5 (Run.V11 m ρ) c)

theorem comp3a_nodes (hr : InRange m c) (n : Fin 50000) (d : Fin 128) :
    (W14 m ρ c (Proc.devRef .tc main_v37) : FVec Ideal S50000x128 .f32) (ix2 n d)
      = Cert.Spec.bnOfSums (fun n' => qXpre m c n' d)
          (0 + ∑ i : Fin 10, ∑ r : Fin 5000, qXpre m c (nodeRow i r) d)
          (0 + ∑ i : Fin 10, ∑ r : Fin 5000, qXpre m c (nodeRow i r) d * qXpre m c (nodeRow i r) d)
          Cert.Spec.cNodes (aGx m c (ix1 d)) (aBx m c (ix1 d)) n := by
  have s1 := comp3a_sums (R := 10) _ _ d fun i => comp2_p1x m ρ c hr i d
  have s2 := comp3a_sums (R := 10) _ _ d fun i => comp2_p2x m ρ c hr i d
  have hm : (W11 m ρ c (Proc.devRef .tc main_v29) : FVec Ideal S1x128 .f32) (ix2 (0 : Fin 1) d) = _ :=
    (hostB_after3_v29_apply (W10 m ρ c) (W10 m ρ c (Proc.devRef .tc main_v24_1)) rfl (0 : Fin 1) d).trans
      (congrArg (fun t => Ideal.div t Cert.Spec.cNodes) s1)
  have hv : (W11 m ρ c (Proc.devRef .tc main_v34) : FVec Ideal S1x128 .f32) (ix2 (0 : Fin 1) d) = _ :=
    (hostB_after3_v34_apply (W10 m ρ c) (W10 m ρ c (Proc.devRef .tc main_v24_1)) rfl
      (W10 m ρ c (Proc.devRef .tc main_v24_2)) rfl (0 : Fin 1) d).trans
      (congrArg₂ (fun a b => Ideal.div b Cert.Spec.cNodes - Ideal.div a Cert.Spec.cNodes * Ideal.div a Cert.Spec.cNodes) s1 s2)
  have hg : (W11 m ρ c (Proc.devRef .tc main_v35) : FVec Ideal S1x128 .f32) (ix2 (0 : Fin 1) d) = _ :=
    hostB_after3_v35_apply (W10 m ρ c) (aGx m c) ((Run.W11_keep m ρ c main_arg12 (by decide)).symm.trans <| (Run.W12_keep m ρ c main_arg12 (by decide)).symm.trans <|
      (Run.W13_keep m ρ c main_arg12 (by decide)).symm.trans <| (Run.W14_keep m ρ c main_arg12 (by decide)).symm.trans (Run.W14_main_arg12 m ρ c)) (0 : Fin 1) d
  have hb : (W11 m ρ c (Proc.devRef .tc main_v36) : FVec Ideal S1x128 .f32) (ix2 (0 : Fin 1) d) = _ :=
    hostB_after3_v36_apply (W10 m ρ c) (aBx m c) ((Run.W11_keep m ρ c main_arg13 (by decide)).symm.trans <| (Run.W12_keep m ρ c main_arg13 (by decide)).symm.trans <|
      (Run.W13_keep m ρ c main_arg13 (by decide)).symm.trans <| (Run.W14_keep m ρ c main_arg13 (by decide)).symm.trans (Run.W14_main_arg13 m ρ c)) (0 : Fin 1) d
  rw [comp3a_node_arr m ρ c, G3_5_apply, Run.W11_keep m ρ c main_v24_0 (by decide), comp2_xpre m ρ c hr n d, hm, hv, hg, hb]
  rfl

theorem comp3a_edge_arr :
    (W14 m ρ c (Proc.devRef .tc main_v48) : FVec Ideal S800000x128 .f32)
      = G4_5 (W13 m ρ c (Proc.devRef .tc main_v16_0)) (W13 m ρ c (Proc.devRef .tc main_v40))
          (W13 m ρ c (Proc.devRef .tc main_v45)) (W13 m ρ c (Proc.devRef .tc main_v46))
          (W13 m ρ c (Proc.devRef .tc main_v47)) :=
  (Run.W14_arr m ρ c 5).trans (final4_5 (Run.V13 m ρ) c)

theorem comp3a_edges (hr : InRange m c) (j : Fin 800000) (d : Fin 128) :
    (W14 m ρ c (Proc.devRef .tc main_v48) : FVec Ideal S800000x128 .f32) (ix2 j d)
      = Cert.Spec.bnOfSums (fun j' => qEij m c j' d)
          (0 + ∑ i : Fin 125, ∑ r : Fin 6400, qEij m c (edgeRow i r) d)
          (0 + ∑ i : Fin 125, ∑ r : Fin 6400, qEij m c (edgeRow i r) d * qEij m c (edgeRow i r) d)
          Cert.Spec.cEdges (aGe m c (ix1 d)) (aBe m c (ix1 d)) j := by
  have hm : (W13 m ρ c (Proc.devRef .tc main_v40) : FVec Ideal S1x128 .f32) (ix2 (0 : Fin 1) d) = _ :=
    hostB_after4_v40_apply (W12 m ρ c) (W12 m ρ c (Proc.devRef .tc main_v17)) rfl (0 : Fin 1) d
  have hv : (W13 m ρ c (Proc.devRef .tc main_v45) : FVec Ideal S1x128 .f32) (ix2 (0 : Fin 1) d) = _ :=
    hostB_after4_v45_apply (W12 m ρ c) (W12 m ρ c (Proc.devRef .tc main_v17)) rfl (W12 m ρ c (Proc.devRef .tc main_v18)) rfl (0 : Fin 1) d
  have s1 : (W12 m ρ c (Proc.devRef .tc main_v17) : FVec Ideal S128 .f32) (ix1 d) = _ :=
    (congrFun ((Run.W12_keep m ρ c main_v17 (by decide)).trans <| (Run.W11_keep m ρ c main_v17 (by decide)).trans
      (Run.W10_keep m ρ c main_v17 (by decide))) (ix1 d)).trans <|
      (hostB_after2_v17_apply (W8 m ρ c) (W8 m ρ c (Proc.devRef .tc main_v16_2)) rfl d).trans
        (comp3a_sums (R := 125) _ _ d fun i => comp2_p1e m ρ c hr i d)
  have s2 : (W12 m ρ c (Proc.devRef .tc main_v18) : FVec Ideal S128 .f32) (ix1 d) = _ :=
    (congrFun ((Run.W12_keep m ρ c main_v18 (by decide)).trans <| (Run.W11_keep m ρ c main_v18 (by decide)).trans
      (Run.W10_keep m ρ c main_v18 (by decide))) (ix1 d)).trans <|
      (hostB_after2_v18_apply (W8 m ρ c) (W8 m ρ c (Proc.devRef .tc main_v16_3)) rfl d).trans
        (comp3a_sums (R := 125) _ _ d fun i => comp2_p2e m ρ c hr i d)
  have hg : (W13 m ρ c (Proc.devRef .tc main_v46) : FVec Ideal S1x128 .f32) (ix2 (0 : Fin 1) d) = _ :=
    hostB_after4_v46_apply (W12 m ρ c) (aGe m c) ((Run.W13_keep m ρ c main_arg14 (by decide)).symm.trans <| (Run.W14_keep m ρ c main_arg14 (by decide)).symm.trans (Run.W14_main_arg14 m ρ c)) (0 : Fin 1) d
  have hb : (W13 m ρ c (Proc.devRef .tc main_v47) : FVec Ideal S1x128 .f32) (ix2 (0 : Fin 1) d) = _ :=
    hostB_after4_v47_apply (W12 m ρ c) (aBe m c) ((Run.W13_keep m ρ c main_arg15 (by decide)).symm.trans <| (Run.W14_keep m ρ c main_arg15 (by decide)).symm.trans (Run.W14_main_arg15 m ρ c)) (0 : Fin 1) d
  rw [comp3a_edge_arr m ρ c, G4_5_apply, Run.W13_keep m ρ c main_v16_0 (by decide), Run.W12_keep m ρ c main_v16_0 (by decide),
    Run.W11_keep m ρ c main_v16_0 (by decide), Run.W10_keep m ρ c main_v16_0 (by decide), Run.W9_keep m ρ c main_v16_0 (by decide),
    comp2_eij m ρ c hr j d, hm, hv, s1, s2,
    hg, hb]
  rfl

end Cert.KernelIdeal.Val

end
-- ==== Proof.KI.Comp3.lean ====
import proofs.«416831_j26182120636870_3_alg».proof.Proof.KI.Comp3a
import proofs.«416831_j26182120636870_3_alg».proof.Proof.KI.Algebra
import Idealize.ShloMosaic.Lib.ValueIdx

noncomputable section

namespace Cert.KernelIdeal.Val

open Cert.KernelIdeal Cert.KernelIdeal.Gen
open Idealize.ShloMosaic Idealize.ShloMosaic.TcCoe Idealize.SL.Sem Idealize.ShloMosaic.ValueIdx
open Cert.KernelIdeal.Run (W0 W1 W2 W3 W4 W5 W6 W7 W8 W9 W10 W11 W12 W13 W14)
open scoped BigOperators

theorem comp3_core {B R N : ℕ} (hN : N = B * R) (h0 : 0 < N) (row : Fin B → Fin R → Fin N)
    (hrow : ∀ b r, (row b r).val = R * b.val + r.val) (q : Fin N → EReal) (hq : ∀ i, Cert.Spec.IsReal (q i))
    (cN g b : EReal) (hc : cN = ((N : ℝ) : EReal)) (n : Fin N) :
    Cert.Spec.bnOfSums q (0 + ∑ i, ∑ r, q (row i r)) (0 + ∑ i, ∑ r, q (row i r) * q (row i r)) cN g b n
      = Cert.Spec.bnRef q cN g b n :=
  Cert.Spec.bnOfSums_eq_bnRef_of_eq h0 q hq _ _ cN g b
    (by rw [Cert.Spec.zero32_eq, Cert.Spec.sum_blocks hN q row hrow])
    (by rw [Cert.Spec.zero32_eq, Cert.Spec.sum_blocks hN (fun i => q i * q i) row hrow]) hc n

variable (m : (ℓ : Loc nD τ sig) → Buf (Elt Ideal) ℓ) (ρ : Dev nD → PrngReg) (c : Dev nD)

theorem comp3_nodes (hr : InRange m c) (hreal : Reals m c) (n : Fin 50000) (d : Fin 128) :
    (W14 m ρ c (Proc.devRef .tc main_v37) : FVec Ideal S50000x128 .f32) (ix2 n d)
      = Cert.Spec.bnRef (fun n' => qXpre m c n' d) Cert.Spec.cNodes (aGx m c (ix1 d)) (aBx m c (ix1 d)) n :=
  (comp3a_nodes m ρ c hr n d).trans
    (comp3_core (by norm_num) (by norm_num) nodeRow nodeRow_val (fun n' => qXpre m c n' d)
      (fun i => Cert.Spec.xpre_isReal hreal (aSrc m c) (aDst m c) i d) _ _ _ Cert.Spec.cNodes_eq_cast n)

theorem comp3_edges (hr : InRange m c) (hreal : Reals m c) (j : Fin 800000) (d : Fin 128) :
    (W14 m ρ c (Proc.devRef .tc main_v48) : FVec Ideal S800000x128 .f32) (ix2 j d)
      = Cert.Spec.bnRef (fun j' => qEij m c j' d) Cert.Spec.cEdges (aGe m c (ix1 d)) (aBe m c (ix1 d)) j :=
  (comp3a_edges m ρ c hr j d).trans
    (comp3_core (by norm_num) (by norm_num) edgeRow edgeRow_val (fun j' => qEij m c j' d)
      (fun i => Cert.Spec.eij_isReal hreal (aSrc m c) (aDst m c) i d) _ _ _ Cert.Spec.cEdges_eq_cast j)

end Cert.KernelIdeal.Val

end
-- ==== Proof.KI.Ref.lean ====
import proofs.«416831_j26182120636870_3_alg».proof.Defs
import proofs.«416831_j26182120636870_3_alg».proof.Proof.Gen.ReferenceIdeal.Run
import proofs.«416831_j26182120636870_3_alg».proof.Proof.Gen.ReferenceIdeal.Read
import proofs.«416831_j26182120636870_3_alg».proof.Proof.LibRowScatter
import proofs.«416831_j26182120636870_3_alg».proof.Proof.KI.SpecDefs
import Idealize.ShloMosaic.Lib.ValueIdx
import Idealize.ShloMosaic.Lib.IdealHost
import Idealize.ShloMosaic.Lib.DynamicIndex
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx
open scoped BigOperators

theorem lin_of_idx {N : Nat} (X : Cert.Spec.Mat N 128) (W : Cert.Spec.Mat 128 128) (b : Cert.Spec.Vec1 128)
    (n : Fin N) (d : Fin 128) (li : Fin 128 → (⟨2, ![N, 128]⟩ : Shape).Idx) (ri : Fin 128 → (⟨2, ![128, 128]⟩ : Shape).Idx)
    (bi : (⟨1, ![128]⟩ : Shape).Idx) (hl : ∀ k, li k = ix2 n k) (hr : ∀ k, ri k = ix2 k d) (hb : bi = ix1 d) :
    (∑ k : Fin 128, X (li k) * W (ri k)) + b bi = Cert.Spec.lin X W b n d := by
  rw [funext hl, funext hr, hb]
  rfl

section Lin

variable (X : FVec Ideal S50000x128 .f32) (Y : FVec Ideal S800000x128 .f32) (W : FVec Ideal S128x128 .f32) (b : FVec Ideal S128 .f32)
  (n : Fin 50000) (j : Fin 800000) (d : Fin 128)

theorem linA_apply : val_main_v7 (F := Ideal) X W b (ix2 n d) = Cert.Spec.lin X W b n d := by
  rw [val_main_v7_apply, val_main_v4_apply, val_main_v6_apply, val_main_v5_apply]
  exact lin_of_idx X W b n d _ _ _ (fun _ => eq_ix2 _) (fun _ => eq_ix2 _) (eq_ix1 _)

theorem linB_apply : val_main_v11 (F := Ideal) X W b (ix2 n d) = Cert.Spec.lin X W b n d := by
  rw [val_main_v11_apply, val_main_v8_apply, val_main_v10_apply, val_main_v9_apply]
  exact lin_of_idx X W b n d _ _ _ (fun _ => eq_ix2 _) (fun _ => eq_ix2 _) (eq_ix1 _)

theorem linC_apply : val_main_v15 (F := Ideal) Y W b (ix2 j d) = Cert.Spec.lin Y W b j d := by
  rw [val_main_v15_apply, val_main_v12_apply, val_main_v14_apply, val_main_v13_apply]
  exact lin_of_idx Y W b j d _ _ _ (fun _ => eq_ix2 _) (fun _ => eq_ix2 _) (eq_ix1 _)

theorem linD_apply : val_main_v19 (F := Ideal) X W b (ix2 n d) = Cert.Spec.lin X W b n d := by
  rw [val_main_v19_apply, val_main_v16_apply, val_main_v18_apply, val_main_v17_apply]
  exact lin_of_idx X W b n d _ _ _ (fun _ => eq_ix2 _) (fun _ => eq_ix2 _) (eq_ix1 _)

theorem linE_apply : val_main_v23 (F := Ideal) X W b (ix2 n d) = Cert.Spec.lin X W b n d := by
  rw [val_main_v23_apply, val_main_v20_apply, val_main_v22_apply, val_main_v21_apply]
  exact lin_of_idx X W b n d _ _ _ (fun _ => eq_ix2 _) (fun _ => eq_ix2 _) (eq_ix1 _)

end Lin

theorem row0_apply (ei : IVec S2x800000 32) (j : Fin 800000) :
    val_main_v1 (F := Ideal) ei (ix1 j) = ei (ix2 (0 : Fin 2) j) := by
  rw [val_main_v1_apply, val_main_v0_apply]
  refine congrArg ei (funext fun a => Fin.ext ?_)
  match a with
  | ⟨0, _⟩ => rfl
  | ⟨1, _⟩ => exact Nat.mod_eq_of_lt j.isLt

theorem row1_apply (ei : IVec S2x800000 32) (j : Fin 800000) :
    val_main_v3 (F := Ideal) ei (ix1 j) = ei (ix2 (1 : Fin 2) j) := by
  rw [val_main_v3_apply, val_main_v2_apply]
  refine congrArg ei (funext fun a => Fin.ext ?_)
  match a with
  | ⟨0, _⟩ => rfl
  | ⟨1, _⟩ => exact Nat.mod_eq_of_lt j.isLt

theorem wrap_id (a b : BitVec 32) (h : 0 ≤ a.toInt) :
    Scalar.select (IntOp.cmpi .slt a 0#32) b a = a :=
  select_slt_zero_of_nonneg (s := ⟨0, ![]⟩) (fun _ => a) (fun _ => b) (fun _ => a) ix0 h

theorem endRaw_apply (ei : IVec S2x800000 32) (j : Fin 800000) :
    val_main_v55 (F := Ideal) ei (ix2 j (0 : Fin 1)) = ei (ix2 (1 : Fin 2) j) := by
  rw [val_main_v55_apply, show idx_main_v55 (ix2 j (0 : Fin 1)) = ix1 j from eq_ix1 _, row1_apply]

theorem endRaw'_apply (ei : IVec S2x800000 32) (j : Fin 800000) :
    val_main_v58 (F := Ideal) ei (ix2 j (0 : Fin 1)) = ei (ix2 (1 : Fin 2) j) := by
  rw [val_main_v58_apply, show idx_main_v58 (ix2 j (0 : Fin 1)) = ix1 j from eq_ix1 _, row1_apply]

theorem take_rows (T : FVec Ideal S50000x128 .f32) (idx : IVec S800000x1 32) (r : Cert.Spec.IRow 800000)
    (j : Fin 800000) (d : Fin 128) (hw : idx (ix2 j (0 : Fin 1)) = r (ix1 j)) :
    Host.gather gather_S50000x128_S800000x1_S800000x128_1_0_n_n_0_1_1128 T idx (ix2 j d)
      = T (ix2 (Cert.Spec.rowOf r j) d) := by
  refine (Cert.LibRowScatter.gather_rows_apply (by omega) gather_S50000x128_S800000x1_S800000x128_1_0_n_n_0_1_1128
    rfl rfl rfl rfl rfl T idx j d).trans ?_
  refine congrArg (fun q : Fin 50000 => T (ix2 q d)) (Fin.ext ?_)
  show min (idx (ix2 j (0 : Fin 1))).toInt.toNat (50000 - 1) = min (r (ix1 j)).toInt.toNat 49999
  rw [hw]

structure Rows (ei : IVec S2x800000 32) (src dst : Cert.Spec.IRow 800000) : Prop where
  src_eq : ∀ j : Fin 800000, ei (ix2 (0 : Fin 2) j) = src (ix1 j)
  dst_eq : ∀ j : Fin 800000, ei (ix2 (1 : Fin 2) j) = dst (ix1 j)
  src_nonneg : ∀ j : Fin 800000, 0 ≤ (src (ix1 j)).toInt
  dst_nonneg : ∀ j : Fin 800000, 0 ≤ (dst (ix1 j)).toInt

section Layer

variable {x : FVec Ideal S50000x128 .f32} {e : FVec Ideal S800000x128 .f32}
  {WA WB WC WD WE : FVec Ideal S128x128 .f32} {bA bB bC bD bE : FVec Ideal S128 .f32}
  {ei : IVec S2x800000 32} {src dst : Cert.Spec.IRow 800000}

theorem Rows.endCol (h : Rows ei src dst) (j : Fin 800000) :
    val_main_v29 (F := Ideal) ei (ix2 j (0 : Fin 1)) = dst (ix1 j) := by
  rw [val_main_v29_apply, show idx_main_v29 (ix2 j (0 : Fin 1)) = ix1 j from eq_ix1 _, val_main_v28_apply, val_main_v25_apply,
    val_main_v24_apply, val_main_c_apply, row1_apply, h.dst_eq]
  exact wrap_id _ _ (h.dst_nonneg j)

theorem Rows.startCol (h : Rows ei src dst) (j : Fin 800000) :
    val_main_v36 (F := Ideal) ei (ix2 j (0 : Fin 1)) = src (ix1 j) := by
  rw [val_main_v36_apply, show idx_main_v36 (ix2 j (0 : Fin 1)) = ix1 j from eq_ix1 _, val_main_v35_apply, val_main_v32_apply,
    val_main_v31_apply, val_main_c_1_apply, row0_apply, h.src_eq]
  exact wrap_id _ _ (h.src_nonneg j)

theorem Rows.startCol' (h : Rows ei src dst) (j : Fin 800000) :
    val_main_v51 (F := Ideal) ei (ix2 j (0 : Fin 1)) = src (ix1 j) := by
  rw [val_main_v51_apply, show idx_main_v51 (ix2 j (0 : Fin 1)) = ix1 j from eq_ix1 _, val_main_v50_apply, val_main_v47_apply,
    val_main_v46_apply, val_main_c_4_apply, row0_apply, h.src_eq]
  exact wrap_id _ _ (h.src_nonneg j)

theorem msg_apply (h : Rows ei src dst) (j : Fin 800000) (d : Fin 128) :
    val_main_v39 (F := Ideal) x e WC bC WD bD WE bE ei (ix2 j d)
      = Cert.Spec.eij x e WC WD WE bC bD bE src dst j d := by
  rw [val_main_v39_apply, val_main_v38_apply, linC_apply]
  unfold val_main_v30 val_main_v37
  rw [take_rows _ _ dst j d (h.endCol j), take_rows _ _ src j d (h.startCol j), linD_apply, linE_apply]
  rfl

theorem gate_apply (h : Rows ei src dst) (j : Fin 800000) (d : Fin 128) :
    val_main_v45 (F := Ideal) x e WC bC WD bD WE bE ei (ix2 j d)
      = Cert.Spec.sig x e WC WD WE bC bD bE src dst j d := by
  rw [val_main_v45_apply, val_main_v44_apply, val_main_cst_3_apply, val_main_v43_apply, val_main_v42_apply,
    val_main_cst_apply, val_main_v41_apply, val_main_v40_apply, msg_apply h]
  show Ideal.div (Ideal.ofBits .f32 0x3F800000#32)
      (Ideal.ofBits .f32 0x3F800000#32 + Ideal.exp (-(Cert.Spec.eij x e WC WD WE bC bD bE src dst j d))) = _
  rw [Ideal.ofBits_one_f32]
  rfl

theorem num_apply (h : Rows ei src dst) (n : Fin 50000) (d : Fin 128) :
    val_main_v56 (F := Ideal) x e WB bB WC bC WD bD WE bE ei (ix2 n d)
      = Cert.Spec.num x e WB WC WD WE bB bC bD bE src dst n d := by
  unfold val_main_v56
  refine (Cert.LibRowScatter.scatterAdd_rows_apply scatter_S50000x128_S800000x1_S800000x128_1_0_0_1 rfl rfl rfl rfl
    _ _ _ n d).trans ?_
  unfold Cert.Spec.num Cert.Spec.into
  refine congrArg₂ (· + ·) ?_ (Finset.sum_congr (Finset.filter_congr fun j _ => ?_) fun j _ => ?_)
  · rw [val_main_v54_apply, val_main_cst_6_apply]; rfl
  · rw [endRaw_apply, h.dst_eq]
  · rw [val_main_v53_apply, gate_apply h]
    unfold val_main_v52
    rw [take_rows _ _ src j d (h.startCol' j), linB_apply]
    rfl

theorem den_apply (h : Rows ei src dst) (n : Fin 50000) (d : Fin 128) :
    val_main_v59 (F := Ideal) x e WC bC WD bD WE bE ei (ix2 n d)
      = Cert.Spec.den x e WC WD WE bC bD bE src dst n d := by
  unfold val_main_v59
  refine (Cert.LibRowScatter.scatterAdd_rows_apply scatter_S50000x128_S800000x1_S800000x128_1_0_0_1 rfl rfl rfl rfl
    _ _ _ n d).trans ?_
  unfold Cert.Spec.den Cert.Spec.into
  refine congrArg₂ (· + ·) ?_ (Finset.sum_congr (Finset.filter_congr fun j _ => ?_) fun j _ => ?_)
  · rw [val_main_v57_apply, val_main_cst_7_apply]; rfl
  · rw [endRaw'_apply, h.dst_eq]
  · exact gate_apply h j d

theorem pre_apply (h : Rows ei src dst) (n : Fin 50000) (d : Fin 128) :
    val_main_v63 (F := Ideal) x e WA bA WB bB WC bC WD bD WE bE ei (ix2 n d)
      = Cert.Spec.xpre x e WA WB WC WD WE bA bB bC bD bE src dst n d := by
  rw [val_main_v63_apply, val_main_v62_apply, val_main_v61_apply, val_main_v60_apply, val_main_cst_8_apply,
    linA_apply, num_apply h, den_apply h]
  rfl

end Layer

theorem nodes_apply (x : FVec Ideal S50000x128 .f32) (e : FVec Ideal S800000x128 .f32)
    (WA : FVec Ideal S128x128 .f32) (bA : FVec Ideal S128 .f32) (WB : FVec Ideal S128x128 .f32) (bB : FVec Ideal S128 .f32)
    (WC : FVec Ideal S128x128 .f32) (bC : FVec Ideal S128 .f32) (WD : FVec Ideal S128x128 .f32) (bD : FVec Ideal S128 .f32)
    (WE : FVec Ideal S128x128 .f32) (bE : FVec Ideal S128 .f32) (gx bx : FVec Ideal S128 .f32) (ei : IVec S2x800000 32)
    (src dst : Cert.Spec.IRow 800000) (h : Rows ei src dst) (n : Fin 50000) (d : Fin 128) :
    val_main_v89 (F := Ideal) x e WA bA WB bB WC bC WD bD WE bE gx bx ei (ix2 n d)
      = Cert.Spec.bnRef (fun n' => Cert.Spec.xpre x e WA WB WC WD WE bA bB bC bD bE src dst n' d)
          Cert.Spec.cNodes (gx (ix1 d)) (bx (ix1 d)) n := by
  rw [val_main_v89_apply, val_main_call0_v0_apply, val_main_call0_cst_apply, val_main_v88_apply, val_main_v85_apply,
    val_main_v82_apply, val_main_v76_apply, val_main_v75_apply, val_main_v74_apply, val_main_v81_apply, val_main_v80_apply,
    val_main_v79_apply, val_main_v78_apply, val_main_v77_apply, val_main_cst_13_apply, val_main_v84_apply, val_main_v83_apply,
    val_main_v87_apply, val_main_v86_apply, show idx_main_v74 (idx_main_v75 (ix2 n d)) = ix1 d from eq_ix1 _,
    show idx_main_v80 (idx_main_v81 (ix2 n d)) = ix1 d from eq_ix1 _, show idx_main_v83 (idx_main_v84 (ix2 n d)) = ix1 d from eq_ix1 _,
    show idx_main_v86 (idx_main_v87 (ix2 n d)) = ix1 d from eq_ix1 _, val_main_v73_apply, val_main_v72_apply,
    val_main_cst_12_apply, val_main_v71_apply, val_main_cst_11_apply]
  simp only [show ∀ k, idx_main_v71 (ix1 d) k = ix2 k d from fun _ => eq_ix2 _, val_main_v70_apply, val_main_v69_apply,
    val_main_v68_apply, val_main_v67_apply, show ∀ k, idx_main_v67 (idx_main_v68 (ix2 k d)) = ix1 d from fun _ => eq_ix1 _]
  rw [val_main_v66_apply, val_main_v65_apply, val_main_cst_10_apply, val_main_v64_apply, val_main_cst_9_apply]
  simp only [show ∀ k, idx_main_v64 (ix1 d) k = ix2 k d from fun _ => eq_ix2 _, pre_apply h]
  rfl

theorem edges_apply (x : FVec Ideal S50000x128 .f32) (e : FVec Ideal S800000x128 .f32)
    (WC : FVec Ideal S128x128 .f32) (bC : FVec Ideal S128 .f32) (WD : FVec Ideal S128x128 .f32) (bD : FVec Ideal S128 .f32)
    (WE : FVec Ideal S128x128 .f32) (bE : FVec Ideal S128 .f32) (ge be : FVec Ideal S128 .f32) (ei : IVec S2x800000 32)
    (src dst : Cert.Spec.IRow 800000) (h : Rows ei src dst) (j : Fin 800000) (d : Fin 128) :
    val_main_v115 (F := Ideal) x e WC bC WD bD WE bE ge be ei (ix2 j d)
      = Cert.Spec.bnRef (fun j' => Cert.Spec.eij x e WC WD WE bC bD bE src dst j' d)
          Cert.Spec.cEdges (ge (ix1 d)) (be (ix1 d)) j := by
  rw [val_main_v115_apply, val_main_call1_v0_apply, val_main_call1_cst_apply, val_main_v114_apply, val_main_v111_apply,
    val_main_v108_apply, val_main_v102_apply, val_main_v101_apply, val_main_v100_apply, val_main_v107_apply, val_main_v106_apply,
    val_main_v105_apply, val_main_v104_apply, val_main_v103_apply, val_main_cst_18_apply, val_main_v110_apply, val_main_v109_apply,
    val_main_v113_apply, val_main_v112_apply, show idx_main_v100 (idx_main_v101 (ix2 j d)) = ix1 d from eq_ix1 _,
    show idx_main_v106 (idx_main_v107 (ix2 j d)) = ix1 d from eq_ix1 _, show idx_main_v109 (idx_main_v110 (ix2 j d)) = ix1 d from eq_ix1 _,
    show idx_main_v112 (idx_main_v113 (ix2 j d)) = ix1 d from eq_ix1 _, val_main_v99_apply, val_main_v98_apply,
    val_main_cst_17_apply, val_main_v97_apply, val_main_cst_16_apply]
  simp only [show ∀ k, idx_main_v97 (ix1 d) k = ix2 k d from fun _ => eq_ix2 _, val_main_v96_apply, val_main_v95_apply,
    val_main_v94_apply, val_main_v93_apply, show ∀ k, idx_main_v93 (idx_main_v94 (ix2 k d)) = ix1 d from fun _ => eq_ix1 _]
  rw [val_main_v92_apply, val_main_v91_apply, val_main_cst_15_apply, val_main_v90_apply, val_main_cst_14_apply]
  simp only [show ∀ k, idx_main_v90 (ix1 d) k = ix2 k d from fun _ => eq_ix2 _, msg_apply h]
  rfl

end Cert.ReferenceIdeal.RefVal

end
-- ==== Proof.KI.PreDecode.lean ====
import proofs.«416831_j26182120636870_3_alg».proof.Defs
import Idealize.ShloMosaic.Lib.ReduceAll
import Idealize.ShloMosaic.Lib.ValueIdx
import Idealize.ShloMosaic.Lib.StableHlo.Predicate

noncomputable section

namespace Cert.KernelIdeal.Val

open Idealize.ShloMosaic Idealize.ShloMosaic.ValueIdx

theorem pre_real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

theorem pre_real_of_all_finite {s : Shape} {axes : List (Fin s.rank)}
    {hb : (⟨0, ![]⟩ : Shape).BroadcastsInDim s (![] : Fin 0 → Fin s.rank)}
    {hred : s.ReducesTo axes (⟨0, ![]⟩ : Shape)} {hu : 0 < (⟨0, ![]⟩ : Shape).numel}
    {x : FVec Ideal s .f32} {init : IVec (⟨0, ![]⟩ : Shape) 1}
    (h : Host.reduce IntOp.andi
          (cmpf .olt (Host.absf x) (broadcastInDim s ![] hb (constant (⟨0, ![]⟩ : Shape) .f32 0x7F800000#32)))
          init hred hu ix0 = 1#1)
    (i : s.Idx) : ∃ r : ℝ, x i = (r : EReal) := by
  haveI : Subsingleton (⟨0, ![]⟩ : Shape).Idx := ⟨fun a b => funext fun d => d.elim0⟩
  exact pre_real_of_abs_lt_inf (x i) (Host.reduce_andi_all _ init hred hu ix0 h i)

theorem pre_range_of_all {s : Shape} {axes : List (Fin s.rank)}
    {hb : (⟨0, ![]⟩ : Shape).BroadcastsInDim s (![] : Fin 0 → Fin s.rank)}
    {hred : s.ReducesTo axes (⟨0, ![]⟩ : Shape)} {hu : 0 < (⟨0, ![]⟩ : Shape).numel}
    {x : IVec s 32} {init0 init1 : IVec (⟨0, ![]⟩ : Shape) 1}
    (h0 : Host.reduce IntOp.andi
          (cmpi .sge x (broadcastInDim s ![] hb (constantI (⟨0, ![]⟩ : Shape) 32 0#32))) init0 hred hu ix0 = 1#1)
    (h1 : Host.reduce IntOp.andi
          (cmpi .slt x (broadcastInDim s ![] hb (constantI (⟨0, ![]⟩ : Shape) 32 50000#32))) init1 hred hu ix0 = 1#1)
    (i : s.Idx) : 0 ≤ (x i).toInt ∧ (x i).toInt < 50000 := by
  haveI : Subsingleton (⟨0, ![]⟩ : Shape).Idx := ⟨fun a b => funext fun d => d.elim0⟩
  exact ⟨IntOp.cmpi_sge.mp (Host.reduce_andi_all _ init0 hred hu ix0 h0 i), IntOp.cmpi_slt.mp (Host.reduce_andi_all _ init1 hred hu ix0 h1 i)⟩

variable [Cert.Pre_finite_inputs.Facts]

theorem pre_decode_all (m : (ℓ : Loc nD τ sig) → Buf (Elt Ideal) ℓ) (hpre : Cert.Pre_KernelIdeal m) (c : Dev nD) :
    (∀ i : S50000x128.Idx, ∃ r : ℝ, (m ((c.tc : Thread nD τ).loc main_arg0) : S50000x128.Idx → EReal) i = (r : EReal)) ∧
    (∀ i : S800000x128.Idx, ∃ r : ℝ, (m ((c.tc : Thread nD τ).loc main_arg1) : S800000x128.Idx → EReal) i = (r : EReal)) ∧
    (∀ i : S128x128.Idx, ∃ r : ℝ, (m ((c.tc : Thread nD τ).loc main_arg2) : S128x128.Idx → EReal) i = (r : EReal)) ∧
    (∀ i : S128.Idx, ∃ r : ℝ, (m ((c.tc : Thread nD τ).loc main_arg3) : S128.Idx → EReal) i = (r : EReal)) ∧
    (∀ i : S128x128.Idx, ∃ r : ℝ, (m ((c.tc : Thread nD τ).loc main_arg4) : S128x128.Idx → EReal) i = (r : EReal)) ∧
    (∀ i : S128.Idx, ∃ r : ℝ, (m ((c.tc : Thread nD τ).loc main_arg5) : S128.Idx → EReal) i = (r : EReal)) ∧
    (∀ i : S128x128.Idx, ∃ r : ℝ, (m ((c.tc : Thread nD τ).loc main_arg6) : S128x128.Idx → EReal) i = (r : EReal)) ∧
    (∀ i : S128.Idx, ∃ r : ℝ, (m ((c.tc : Thread nD τ).loc main_arg7) : S128.Idx → EReal) i = (r : EReal)) ∧
    (∀ i : S128x128.Idx, ∃ r : ℝ, (m ((c.tc : Thread nD τ).loc main_arg8) : S128x128.Idx → EReal) i = (r : EReal)) ∧
    (∀ i : S128.Idx, ∃ r : ℝ, (m ((c.tc : Thread nD τ).loc main_arg9) : S128.Idx → EReal) i = (r : EReal)) ∧
    (∀ i : S128x128.Idx, ∃ r : ℝ, (m ((c.tc : Thread nD τ).loc main_arg10) : S128x128.Idx → EReal) i = (r : EReal)) ∧
    (∀ i : S128.Idx, ∃ r : ℝ, (m ((c.tc : Thread nD τ).loc main_arg11) : S128.Idx → EReal) i = (r : EReal)) ∧
    (∀ i : S128.Idx, ∃ r : ℝ, (m ((c.tc : Thread nD τ).loc main_arg12) : S128.Idx → EReal) i = (r : EReal)) ∧
    (∀ i : S128.Idx, ∃ r : ℝ, (m ((c.tc : Thread nD τ).loc main_arg13) : S128.Idx → EReal) i = (r : EReal)) ∧
    (∀ i : S128.Idx, ∃ r : ℝ, (m ((c.tc : Thread nD τ).loc main_arg14) : S128.Idx → EReal) i = (r : EReal)) ∧
    (∀ i : S128.Idx, ∃ r : ℝ, (m ((c.tc : Thread nD τ).loc main_arg15) : S128.Idx → EReal) i = (r : EReal)) ∧
    (∀ i : S2x800000.Idx, 0 ≤ ((m ((c.tc : Thread nD τ).loc main_arg16) : S2x800000.Idx → BitVec 32) i).toInt ∧ ((m ((c.tc : Thread nD τ).loc main_arg16) : S2x800000.Idx → BitVec 32) i).toInt < 50000) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h
  simp only [IntOp.andi_eq_one] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, hge⟩, hlt⟩ := h
  exact ⟨pre_real_of_all_finite h0, pre_real_of_all_finite h1, pre_real_of_all_finite h2, pre_real_of_all_finite h3,
    pre_real_of_all_finite h4, pre_real_of_all_finite h5, pre_real_of_all_finite h6, pre_real_of_all_finite h7,
    pre_real_of_all_finite h8, pre_real_of_all_finite h9, pre_real_of_all_finite h10, pre_real_of_all_finite h11,
    pre_real_of_all_finite h12, pre_real_of_all_finite h13, pre_real_of_all_finite h14, pre_real_of_all_finite h15,
    pre_range_of_all hge hlt⟩

end Cert.KernelIdeal.Val

end
-- ==== Proof.lean ====
import proofs.«416831_j26182120636870_3_alg».proof.Defs
import proofs.«416831_j26182120636870_3_alg».proof.Proof.Gen.Kernel
import proofs.«416831_j26182120636870_3_alg».proof.Proof.Gen.KernelIdeal
import proofs.«416831_j26182120636870_3_alg».proof.Proof.Gen.ReferenceIdeal
import proofs.«416831_j26182120636870_3_alg».proof.Proof.Gen.Pre_finite_inputs
import proofs.«416831_j26182120636870_3_alg».proof.Proof.KB.Run
import proofs.«416831_j26182120636870_3_alg».proof.Proof.KI.Comp3
import proofs.«416831_j26182120636870_3_alg».proof.Proof.KI.Ref
import proofs.«416831_j26182120636870_3_alg».proof.Proof.KI.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

-- Both results are batch normalisations of the same columns: over the reals, mean square minus squared mean is the mean squared deviation and is not negative, so the clip at zero changes nothing.
theorem algebraic : Cert.algebraic_KernelIdeal_ReferenceIdeal := by
  intro m g m' g' hpre hagree
  have hdec := fun c => Cert.KernelIdeal.Val.pre_decode_all m hpre c
  have hrange := fun c => (hdec c).2.2.2.2.2.2.2.2.2.2.2.2.2.2.2.2
  have hr : ∀ c, Cert.KernelIdeal.Val.InRange m c := fun c =>
    ⟨fun j => by rw [Cert.KernelIdeal.Val.aSrc_apply]; exact (hrange c _).1,
     fun j => by rw [Cert.KernelIdeal.Val.aSrc_apply]; exact (hrange c _).2,
     fun j => by rw [Cert.KernelIdeal.Val.aDst_apply]; exact (hrange c _).1,
     fun j => by rw [Cert.KernelIdeal.Val.aDst_apply]; exact (hrange c _).2⟩
  have hreal : ∀ c, Cert.KernelIdeal.Val.Reals m c := fun c => by
    obtain ⟨h0, h1, h2, h3, h4, h5, h6, h7, h8, h9, h10, h11, -⟩ := hdec c
    exact ⟨h0, h1, h2, h4, h6, h8, h10, h3, h5, h7, h9, h11⟩
  have hrows : ∀ c, Cert.ReferenceIdeal.RefVal.Rows (Cert.KernelIdeal.Val.aEI m c) (Cert.KernelIdeal.Val.aSrc m c)
      (Cert.KernelIdeal.Val.aDst m c) := fun c =>
    ⟨fun _ => rfl, fun _ => rfl, (hr c).src_lo, (hr c).dst_lo⟩
  refine ⟨fun c => Cert.KernelIdeal.Run.W14 m g c (Proc.devRef .tc Cert.KernelIdeal.main_v37),
    fun c => Cert.KernelIdeal.Run.W14 m g c (Proc.devRef .tc Cert.KernelIdeal.main_v48), ?_, ?_⟩
  · exact Cert.KernelIdeal.Run.run_post m g fun s h c =>
      ⟨h c _ (Cert.KernelIdeal.Run.mem_uc Cert.KernelIdeal.main_v37 (by decide)),
       h c _ (Cert.KernelIdeal.Run.mem_uc Cert.KernelIdeal.main_v48 (by decide)),
       (h c _ (Cert.KernelIdeal.Run.mem_uc Cert.KernelIdeal.main_arg0 (by decide))).trans (Cert.KernelIdeal.Run.W14_main_arg0 m g c),
       (h c _ (Cert.KernelIdeal.Run.mem_uc Cert.KernelIdeal.main_arg1 (by decide))).trans (Cert.KernelIdeal.Run.W14_main_arg1 m g c),
       (h c _ (Cert.KernelIdeal.Run.mem_uc Cert.KernelIdeal.main_arg2 (by decide))).trans (Cert.KernelIdeal.Run.W14_main_arg2 m g c),
       (h c _ (Cert.KernelIdeal.Run.mem_uc Cert.KernelIdeal.main_arg3 (by decide))).trans (Cert.KernelIdeal.Run.W14_main_arg3 m g c),
       (h c _ (Cert.KernelIdeal.Run.mem_uc Cert.KernelIdeal.main_arg4 (by decide))).trans (Cert.KernelIdeal.Run.W14_main_arg4 m g c),
       (h c _ (Cert.KernelIdeal.Run.mem_uc Cert.KernelIdeal.main_arg5 (by decide))).trans (Cert.KernelIdeal.Run.W14_main_arg5 m g c),
       (h c _ (Cert.KernelIdeal.Run.mem_uc Cert.KernelIdeal.main_arg6 (by decide))).trans (Cert.KernelIdeal.Run.W14_main_arg6 m g c),
       (h c _ (Cert.KernelIdeal.Run.mem_uc Cert.KernelIdeal.main_arg7 (by decide))).trans (Cert.KernelIdeal.Run.W14_main_arg7 m g c),
       (h c _ (Cert.KernelIdeal.Run.mem_uc Cert.KernelIdeal.main_arg8 (by decide))).trans (Cert.KernelIdeal.Run.W14_main_arg8 m g c),
       (h c _ (Cert.KernelIdeal.Run.mem_uc Cert.KernelIdeal.main_arg9 (by decide))).trans (Cert.KernelIdeal.Run.W14_main_arg9 m g c),
       (h c _ (Cert.KernelIdeal.Run.mem_uc Cert.KernelIdeal.main_arg10 (by decide))).trans (Cert.KernelIdeal.Run.W14_main_arg10 m g c),
       (h c _ (Cert.KernelIdeal.Run.mem_uc Cert.KernelIdeal.main_arg11 (by decide))).trans (Cert.KernelIdeal.Run.W14_main_arg11 m g c),
       (h c _ (Cert.KernelIdeal.Run.mem_uc Cert.KernelIdeal.main_arg12 (by decide))).trans (Cert.KernelIdeal.Run.W14_main_arg12 m g c),
       (h c _ (Cert.KernelIdeal.Run.mem_uc Cert.KernelIdeal.main_arg13 (by decide))).trans (Cert.KernelIdeal.Run.W14_main_arg13 m g c),
       (h c _ (Cert.KernelIdeal.Run.mem_uc Cert.KernelIdeal.main_arg14 (by decide))).trans (Cert.KernelIdeal.Run.W14_main_arg14 m g c),
       (h c _ (Cert.KernelIdeal.Run.mem_uc Cert.KernelIdeal.main_arg15 (by decide))).trans (Cert.KernelIdeal.Run.W14_main_arg15 m g c),
       (h c _ (Cert.KernelIdeal.Run.mem_uc Cert.KernelIdeal.main_arg16 (by decide))).trans (Cert.KernelIdeal.Run.W14_main_arg16 m g c)⟩
  · refine (θ_run Cert.ReferenceIdeal.defs _ _).mono (fun r h c => ⟨(h c).1.trans ?_, (h c).2.1.trans ?_, (h c).2.2⟩)
      (Cert.ReferenceIdeal.Value.run (F := Ideal) m' g')
    ·
      have key : ∀ (n : Fin 50000) (d : Fin 128),
          (Cert.ReferenceIdeal.Value.res_main_v89 m' c : FVec Ideal Cert.ReferenceIdeal.S50000x128 .f32) (ix2 n d)
            = (Cert.KernelIdeal.Run.W14 m g c (Proc.devRef .tc Cert.KernelIdeal.main_v37) : FVec Ideal Cert.KernelIdeal.S50000x128 .f32) (ix2 n d) := fun n d => by
        have e1 := congrFun (Cert.ReferenceIdeal.Read.val_main_v89_eq (F := Ideal) m' c) (ix2 n d)
        rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.2.2] at e1
        exact e1.trans ((Cert.ReferenceIdeal.RefVal.nodes_apply _ _ _ _ _ _ _ _ _ _ _ _ _ _ _ _ _ (hrows c) n d).trans
          (Cert.KernelIdeal.Val.comp3_nodes m g c (hr c) (hreal c) n d).symm)
      exact funext fun i => by rw [eq_ix2 i]; exact key _ _
    ·
      have key : ∀ (j : Fin 800000) (d : Fin 128),
          (Cert.ReferenceIdeal.Value.res_main_v115 m' c : FVec Ideal Cert.ReferenceIdeal.S800000x128 .f32) (ix2 j d)
            = (Cert.KernelIdeal.Run.W14 m g c (Proc.devRef .tc Cert.KernelIdeal.main_v48) : FVec Ideal Cert.KernelIdeal.S800000x128 .f32) (ix2 j d) := fun j d => by
        have e1 := congrFun (Cert.ReferenceIdeal.Read.val_main_v115_eq (F := Ideal) m' c) (ix2 j d)
        rw [(hagree c).1, (hagree c).2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2] at e1
        exact e1.trans ((Cert.ReferenceIdeal.RefVal.edges_apply _ _ _ _ _ _ _ _ _ _ _ _ _ (hrows c) j d).trans
          (Cert.KernelIdeal.Val.comp3_edges m g c (hr c) (hreal c) j d).symm)
      exact funext fun i => by rw [eq_ix2 i]; exact key _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
